-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096x1024 .f32) (main_arg12 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x1024 .f32 := Host.absf main_arg11
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S1024 .f32) (main_arg8 : FVec F S1024 .f32) (main_arg9 : FVec F S1024x4096 .f32) (main_arg10 : FVec F S4096 .f32) (main_arg11 : FVec F S4096x1024 .f32) (main_arg12 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S1024 .f32) (main_arg5 : FVec F S1024x1024 .f32) (main_arg6 : FVec F S1024 .f32) (main_arg7 : FVec F S1024 .f32) (main_arg8 : FVec F S1024 .f32) (main_arg9 : FVec F S1024x4096 .f32) (main_arg10 : FVec F S4096 .f32) (main_arg11 : FVec F S4096x1024 .f32) (main_arg12 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024 .f32) (main_arg8 : FVec F S1024 .f32) (main_arg9 : FVec F S1024x4096 .f32) (main_arg10 : FVec F S4096 .f32) (main_arg11 : FVec F S4096x1024 .f32) (main_arg12 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S2x18 : Shape := ⟨2, ![2, 18]⟩
abbrev S1024x2048 : Shape := ⟨2, ![1024, 2048]⟩
abbrev S2048 : Shape := ⟨1, ![2048]⟩
abbrev S512x1024 : Shape := ⟨2, ![512, 1024]⟩
abbrev S512x2048 : Shape := ⟨2, ![512, 2048]⟩
abbrev S1x2048 : Shape := ⟨2, ![1, 2048]⟩
abbrev S1x1 : Shape := ⟨2, ![1, 1]⟩
abbrev S512x1 : Shape := ⟨2, ![512, 1]⟩
abbrev S1x1024 : Shape := ⟨2, ![1, 1024]⟩
abbrev S1024x512 : Shape := ⟨2, ![1024, 512]⟩
abbrev S512x512 : Shape := ⟨2, ![512, 512]⟩
abbrev S512 : Shape := ⟨1, ![512]⟩

abbrev nBuf : Space → Nat
  | .hbm => 24
  | .vmem => 34
  | .smem => 2
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S4096x1024, .f32⟩
  | .hbm, ⟨12, _⟩ => ⟨S1024, .f32⟩
  | .hbm, ⟨13, _⟩ => ⟨S4096x1024, .bf16⟩
  | .hbm, ⟨14, _⟩ => ⟨S1024x2048, .f32⟩
  | .hbm, ⟨15, _⟩ => ⟨S1024x2048, .bf16⟩
  | .hbm, ⟨16, _⟩ => ⟨S2048, .f32⟩
  | .hbm, ⟨17, _⟩ => ⟨S4096x1024, .bf16⟩
  | .hbm, ⟨18, _⟩ => ⟨S4096x1024, .bf16⟩
  | .hbm, ⟨19, _⟩ => ⟨S1024x1024, .bf16⟩
  | .hbm, ⟨20, _⟩ => ⟨S4096x1024, .bf16⟩
  | .hbm, ⟨21, _⟩ => ⟨S1024x4096, .bf16⟩
  | .hbm, ⟨22, _⟩ => ⟨S4096x1024, .bf16⟩
  | .hbm, ⟨23, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1024, .f32⟩
  | .local _ .vmem, ⟨19, _⟩ => ⟨S1024, .f32⟩
  | .local _ .vmem, ⟨20, _⟩ => ⟨S512x1024, .bf16⟩
  | .local _ .vmem, ⟨21, _⟩ => ⟨S512x1024, .bf16⟩
  | .local _ .vmem, ⟨22, _⟩ => ⟨S512x1, .f32⟩
  | .local _ .vmem, ⟨23, _⟩ => ⟨S512x1, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S1024x4096, .bf16⟩
  | .local _ .vmem, ⟨29, _⟩ => ⟨S4096, .f32⟩
  | .local _ .vmem, ⟨30, _⟩ => ⟨S4096x1024, .bf16⟩
  | .local _ .vmem, ⟨31, _⟩ => ⟨S1024, .f32⟩
  | .local _ .vmem, ⟨32, _⟩ => ⟨S512x1024, .f32⟩
  | .local _ .vmem, ⟨33, _⟩ => ⟨S512x1024, .f32⟩
  | .local _ .smem, ⟨0, _⟩ => ⟨S2x18, .i32⟩
  | .local _ .smem, ⟨1, _⟩ => ⟨S2x18, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 18], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k1_cond2 (v2 : BitVec 32) (v5 : BitVec 32) : BitVec 1 :=
  let v59 : BitVec 1 := Scalar.cmpi .eq v5 v2
  let v60 : BitVec 32 := Scalar.extui v59
  let c0_i32_26 : BitVec 32 := 0#32
  let v61 : BitVec 1 := Scalar.cmpi .ne v60 c0_i32_26
  v61

def cc1_transform_0 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_4 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_5 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  concatenates_S1024x1024_S1024x1024_S1024x2048_d1 : Shape.Concatenates [S1024x1024, S1024x1024] S1024x2048 1
  concatenates_S1024_S1024_S2048_d0 : Shape.Concatenates [S1024, S1024] S2048 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  slices_S512x2048_o0_0_S512x1024 : S512x2048.Slices ![0, 0] S512x1024
  packedbf16_S512x1024_S512x1024_0_0 : (Rect.unit (s := S512x1024) ![0, 0] S512x1024.size inb_S512x1024_S512x1024_0_0).PackedRows (EltTy.packing .bf16)
  slices_S512x2048_o0_1024_S512x1024 : S512x2048.Slices ![0, 1024] S512x1024
  numel1_S1x1 : S1x1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  transposes_S512x1024_p1_0_S1024x512 : S512x1024.Transposes [1, 0] S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  reduces_S512x1024_S512 : S512x1024.Reduces [1] S512
  inb_S1024x4096_S1024x1024_0_0 : ∀ a, (![0, 0] : Fin 2 → Nat) a + S1024x1024.size a ≤ S1024x4096.size a
  inb_S4096_S1024_0 : ∀ a, (![0] : Fin 1 → Nat) a + S1024.size a ≤ S4096.size a
  inb_S4096x1024_S1024x1024_0_0 : ∀ a, (![0, 0] : Fin 2 → Nat) a + S1024x1024.size a ≤ S4096x1024.size a
  inb_S1024x4096_S1024x1024_0_1024 : ∀ a, (![0, 1024] : Fin 2 → Nat) a + S1024x1024.size a ≤ S1024x4096.size a
  inb_S4096_S1024_1024 : ∀ a, (![1024] : Fin 1 → Nat) a + S1024.size a ≤ S4096.size a
  inb_S4096x1024_S1024x1024_1024_0 : ∀ a, (![1024, 0] : Fin 2 → Nat) a + S1024x1024.size a ≤ S4096x1024.size a
  inb_S1024x4096_S1024x1024_0_2048 : ∀ a, (![0, 2048] : Fin 2 → Nat) a + S1024x1024.size a ≤ S1024x4096.size a
  inb_S4096_S1024_2048 : ∀ a, (![2048] : Fin 1 → Nat) a + S1024.size a ≤ S4096.size a
  inb_S4096x1024_S1024x1024_2048_0 : ∀ a, (![2048, 0] : Fin 2 → Nat) a + S1024x1024.size a ≤ S4096x1024.size a
  inb_S1024x4096_S1024x1024_0_3072 : ∀ a, (![0, 3072] : Fin 2 → Nat) a + S1024x1024.size a ≤ S1024x4096.size a
  inb_S4096_S1024_3072 : ∀ a, (![3072] : Fin 1 → Nat) a + S1024.size a ≤ S4096.size a
  inb_S4096x1024_S1024x1024_3072_0 : ∀ a, (![3072, 0] : Fin 2 → Nat) a + S1024x1024.size a ≤ S4096x1024.size a
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hrank1 : 0 < grid1.rank
  k1_off1_inb : ∀ i : grid1.Coords, ∀ a, (k1_off1 i) a + S1x1.size a ≤ S2x18.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1x1 pf i = cc1_transform_0 k1_off1_inb numel1_S1x1 pf i'
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1x1 pf i = cc1_transform_3 k1_off1_inb numel1_S1x1 pf i'
  hstage1_4 : ∀ j, (stage1_4 j).IsWhole
  nbuf1_4 : grid1.bufCount reads1_4 false = 2
  hreads1_4 : ∀ {F : FTy → Type} [FloatOps F] (pf : pre1.Contents (Elt F)) (i i' : grid1.Coords), (∀ a, reads1_4 a = true → i a = i' a) → cc1_transform_4 k1_off1_inb numel1_S1x1 pf i = cc1_transform_4 k1_off1_inb numel1_S1x1 pf i'
  hstage1_5 : ∀ j, (stage1_5 j).IsWhole
  nbuf1_5 : grid1.bufCount reads1_5 false = 2
  hreads1_5 : ∀ {F : FTy → Type} [FloatOps F] (pf : pre1.Contents (Elt F)) (i i' : grid1.Coords), (∀ a, reads1_5 a = true → i a = i' a) → cc1_transform_5 k1_off1_inb numel1_S1x1 pf i = cc1_transform_5 k1_off1_inb numel1_S1x1 pf i'
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024.size a ≤ S1024.size a
  hwx1_7 : ∀ i : grid1.Coords, EltTy.bits .f32 = 32 ∨ (Rect.block (s := S1024) S1024.size (cc1_transform_7 i) (hinb1_7 i)).WholeWords (EltTy.packing .f32)
  hstage1_8 : ∀ j, (stage1_8 j).IsWhole
  nbuf1_8 : grid1.bufCount reads1_8 false = 2
  hreads1_8 : ∀ {F : FTy → Type} [FloatOps F] (pf : pre1.Contents (Elt F)) (i i' : grid1.Coords), (∀ a, reads1_8 a = true → i a = i' a) → cc1_transform_8 k1_off1_inb numel1_S1x1 pf i = cc1_transform_8 k1_off1_inb numel1_S1x1 pf i'
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S1024x4096.size a
  hwx2_1 : ∀ i : grid2.Coords, EltTy.bits .bf16 = 32 ∨ (Rect.block (s := S1024x4096) S1024x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S4096.size a
  hwx2_2 : ∀ i : grid2.Coords, EltTy.bits .f32 = 32 ∨ (Rect.block (s := S4096) S4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x1024.size a ≤ S4096x1024.size a
  hwx2_3 : ∀ i : grid2.Coords, EltTy.bits .bf16 = 32 ∨ (Rect.block (s := S4096x1024) S4096x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S4096x1024.size a
  hwx2_5 : ∀ i : grid2.Coords, EltTy.bits .f32 = 32 ∨ (Rect.block (s := S4096x1024) S512x1024.size (cc2_transform_5 i) (hinb2_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v0) S512x1024.size reads1_0 false false 2 stage1_0 sem1_0 nbuf1_0 hstage1_0

abbrev spec1_1 : Pipeline.WinSpec sig grid1.rank :=
  Pipeline.WinSpec.ofSpec (Memref.whole main_v5) S1024x1024.size reads1_1 false true 1 stage1_1 sem1_1 nbuf1_1 hstage1_1

abbrev spec1_2 : Pipeline.WinSpec sig grid1.rank :=
  Pipeline.WinSpec.ofSpec (Memref.whole main_arg2) S1024.size reads1_2 false true 1 stage1_2 sem1_2 nbuf1_2 hstage1_2

abbrev spec1_3 : Pipeline.WinSpec sig grid1.rank :=
  Pipeline.WinSpec.ofSpec (Memref.whole main_v4_0) S512x1024.size reads1_3 false false 2 stage1_3 sem1_3 nbuf1_3 hstage1_3

abbrev spec1_4 : Pipeline.WinSpec sig grid1.rank :=
  Pipeline.WinSpec.ofSpec (Memref.whole main_v4_1) S512x1024.size reads1_4 false false 2 stage1_4 sem1_4 nbuf1_4 hstage1_4

abbrev spec1_5 : Pipeline.WinSpec sig grid1.rank :=
  Pipeline.WinSpec.ofSpec (Memref.whole main_arg0) S512x1024.size reads1_5 false false 2 stage1_5 sem1_5 nbuf1_5 hstage1_5

abbrev spec1_6 : Pipeline.WinSpec sig grid1.rank :=
  Pipeline.WinSpec.ofSpec (Memref.whole main_arg7) S1024.size reads1_6 false true 1 stage1_6 sem1_6 nbuf1_6 hstage1_6

abbrev spec1_7 : Pipeline.WinSpec sig grid1.rank :=
  Pipeline.WinSpec.ofSpec (Memref.whole main_arg8) S1024.size reads1_7 false true 1 stage1_7 sem1_7 nbuf1_7 hstage1_7

abbrev spec1_8 : Pipeline.WinSpec sig grid1.rank :=
  Pipeline.WinSpec.ofSpec (Memref.whole main_v6) S512x1024.size reads1_8 true false 2 stage1_8 sem1_8 nbuf1_8 hstage1_8

abbrev spec1 : Fin 9 → Pipeline.WinSpec sig grid1.rank := fun | 0 => spec1_0 | 1 => spec1_1 | 2 => spec1_2 | 3 => spec1_3 | 4 => spec1_4 | 5 => spec1_5 | 6 => spec1_6 | 7 => spec1_7 | 8 => spec1_8 | ⟨_ + 9, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | 7 => nbuf1_7 | 8 => nbuf1_8 | ⟨_ + 9, h⟩ => absurd h (Nat.not_lt.2 (Nat.le_add_left _ _))
abbrev ix1 (pf : pre1.Contents (Elt F)) : (w : Fin 9) → grid1.Coords → Fin (spec1 w).shape.rank → Nat := fun | 0 => cc1_transform_0 k1_off1_inb numel1_S1x1 pf | 1 => cc1_transform_1 | 2 => cc1_transform_2 | 3 => cc1_transform_3 k1_off1_inb numel1_S1x1 pf | 4 => cc1_transform_4 k1_off1_inb numel1_S1x1 pf | 5 => cc1_transform_5 k1_off1_inb numel1_S1x1 pf | 6 => cc1_transform_6 | 7 => cc1_transform_7 | 8 => cc1_transform_8 k1_off1_inb numel1_S1x1 pf | ⟨_ + 9, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | 2 => hreads1_2 | 3 => hreads1_3 pf | 4 => hreads1_4 pf | 5 => hreads1_5 pf | 6 => hreads1_6 | 7 => hreads1_7 | 8 => hreads1_8 pf | ⟨_ + 9, h⟩ => absurd h (Nat.not_lt.2 (Nat.le_add_left _ _))
def ok1 (pf : pre1.Contents (Elt F)) : Prop :=
  (∀ i : grid1.Coords, ∃ h : (∀ a, (cc1_transform_0 k1_off1_inb numel1_S1x1 pf i a + 1) * S512x1024.size a ≤ S4096x1024.size a), EltTy.bits .bf16 = 32 ∨ (Rect.block (s := S4096x1024) S512x1024.size (cc1_transform_0 k1_off1_inb numel1_S1x1 pf i) h).WholeWords (EltTy.packing .bf16)) ∧
  (∀ i : grid1.Coords, ∃ h : (∀ a, (cc1_transform_3 k1_off1_inb numel1_S1x1 pf i a + 1) * S512x1024.size a ≤ S4096x1024.size a), EltTy.bits .bf16 = 32 ∨ (Rect.block (s := S4096x1024) S512x1024.size (cc1_transform_3 k1_off1_inb numel1_S1x1 pf i) h).WholeWords (EltTy.packing .bf16)) ∧
  (∀ i : grid1.Coords, ∃ h : (∀ a, (cc1_transform_4 k1_off1_inb numel1_S1x1 pf i a + 1) * S512x1024.size a ≤ S4096x1024.size a), EltTy.bits .bf16 = 32 ∨ (Rect.block (s := S4096x1024) S512x1024.size (cc1_transform_4 k1_off1_inb numel1_S1x1 pf i) h).WholeWords (EltTy.packing .bf16)) ∧
  (∀ i : grid1.Coords, ∃ h : (∀ a, (cc1_transform_5 k1_off1_inb numel1_S1x1 pf i a + 1) * S512x1024.size a ≤ S4096x1024.size a), EltTy.bits .f32 = 32 ∨ (Rect.block (s := S4096x1024) S512x1024.size (cc1_transform_5 k1_off1_inb numel1_S1x1 pf i) h).WholeWords (EltTy.packing .f32)) ∧
  (∀ i : grid1.Coords, ∃ h : (∀ a, (cc1_transform_8 k1_off1_inb numel1_S1x1 pf i a + 1) * S512x1024.size a ≤ S4096x1024.size a), EltTy.bits .bf16 = 32 ∨ (Rect.block (s := S4096x1024) S512x1024.size (cc1_transform_8 k1_off1_inb numel1_S1x1 pf i) h).WholeWords (EltTy.packing .bf16))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => hinb1_1 | 2 => hinb1_2 | 3 => fun i a => (hok.2.1 i).elim fun h _ => h a | 4 => fun i a => (hok.2.2.1 i).elim fun h _ => h a | 5 => fun i a => (hok.2.2.2.1 i).elim fun h _ => h a | 6 => hinb1_6 | 7 => hinb1_7 | 8 => fun i a => (hok.2.2.2.2 i).elim fun h _ => h a | ⟨_ + 9, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => hwx1_1 | 2 => hwx1_2 | 3 => fun i => (hok.2.1 i).elim fun _ h => h | 4 => fun i => (hok.2.2.1 i).elim fun _ h => h | 5 => fun i => (hok.2.2.2.1 i).elim fun _ h => h | 6 => hwx1_6 | 7 => hwx1_7 | 8 => fun i => (hok.2.2.2.2 i).elim fun _ h => h | ⟨_ + 9, h⟩ => absurd h (Nat.not_lt.2 (Nat.le_add_left _ _))
abbrev idle1 (pf : pre1.Contents (Elt F)) : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 (pf.atD 0 (k1_off1 i)) (pf.atD 1 (k1_off1 i)) == 1#1) | ⟨_ + 9, h⟩ => absurd h (Nat.not_lt.2 (Nat.le_add_left _ _))

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S4096x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where
  harr1 : ∀ w, (spec1 w).arr.IsWhole

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S_ : Shape := ⟨0, ![]⟩
abbrev S1x1024 : Shape := ⟨2, ![1, 1024]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S4096x1024, .f32⟩
  | .hbm, ⟨12, _⟩ => ⟨S1024, .f32⟩
  | .hbm, ⟨13, _⟩ => ⟨S_, .f32⟩
  | .hbm, ⟨14, _⟩ => ⟨S_, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .i1⟩
  | .hbm, ⟨32, _⟩ => ⟨S4096x4096, .i1⟩
  | .hbm, ⟨33, _⟩ => ⟨S4096x4096, .i32⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .i1⟩
  | .hbm, ⟨40, _⟩ => ⟨S4096x4096, .i1⟩
  | .hbm, ⟨41, _⟩ => ⟨S4096x4096, .i1⟩
  | .hbm, ⟨42, _⟩ => ⟨S_, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x4096, .f32⟩
  | .hbm, ⟨59, _⟩ => ⟨S4096x4096, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S1x1024, .f32⟩
  | .hbm, ⟨89, _⟩ => ⟨S4096x1024, .f32⟩
  | .hbm, ⟨90, _⟩ => ⟨S4096x1024, .f32⟩
  | .hbm, ⟨91, _⟩ => ⟨S4096x4096, .f32⟩
  | .hbm, ⟨92, _⟩ => ⟨S1x4096, .f32⟩
  | .hbm, ⟨93, _⟩ => ⟨S4096x4096, .f32⟩
  | .hbm, ⟨94, _⟩ => ⟨S4096x4096, .f32⟩
  | .hbm, ⟨95, _⟩ => ⟨S_, .f32⟩
  | .hbm, ⟨96, _⟩ => ⟨S4096x4096, .f32⟩
  | .hbm, ⟨97, _⟩ => ⟨S4096x4096, .f32⟩
  | .hbm, ⟨98, _⟩ => ⟨S4096x1024, .f32⟩
  | .hbm, ⟨99, _⟩ => ⟨S1x1024, .f32⟩
  | .hbm, ⟨100, _⟩ => ⟨S4096x1024, .f32⟩
  | .hbm, ⟨101, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_0 : Ref sig .tc := ⟨.hbm, 39, rfl⟩
abbrev main_call0_v5 : Ref sig .tc := ⟨.hbm, 40, rfl⟩
abbrev main_v18 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_8 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call2_cst : Ref sig .tc := ⟨.hbm, 95, rfl⟩
abbrev main_call2_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  reducesTo_S4096x1024_S4096_d1 : S4096x1024.ReducesTo [1] S4096
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.R0.lean ====
import proofs.«405582_j50302656971267_3_alg».proof.Proof.Gen.KernelIdeal.Launch
import proofs.«405582_j50302656971267_3_alg».proof.Proof.Gen.KernelIdeal.Skeleton
import proofs.«405582_j50302656971267_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x1024 := Rect.unit (s := S512x1024) ![0, 0] S512x1024.size inb_S512x1024_S512x1024_0_0
abbrev r0_w : Rect S1024x2048 := Rect.unit (s := S1024x2048) ![0, 0] S1024x2048.size inb_S1024x2048_S1024x2048_0_0
abbrev r0_b : Rect S2048 := Rect.unit (s := S2048) ![0] S2048.size inb_S2048_S2048_0

def out0_3 (x0 : Vec F S512x1024 .bf16) (x1 : Vec F S1024x2048 .bf16) (x2 : Vec F S2048 .f32) : Vec F S512x1024 .bf16 :=
  View.canon [⟨r0_x, k0_pay2 (View.ld x0 r0_x) (View.ld x1 r0_w) (View.ld x2 r0_b)⟩]

def out0_4 (x0 : Vec F S512x1024 .bf16) (x1 : Vec F S1024x2048 .bf16) (x2 : Vec F S2048 .f32) : Vec F S512x1024 .bf16 :=
  View.canon [⟨r0_x, k0_pay3 (View.ld x0 r0_x) (View.ld x1 r0_w) (View.ld x2 r0_b)⟩]

theorem sound_kernel0 (c : Dev nD) (E : Set ℕ) (i : grid0.Coords)
    (arg0 : Memref sig .tc .vmem S512x1024 .bf16) (harg0 : arg0.IsWhole)
    (arg1 : Memref sig .tc .vmem S1024x2048 .bf16) (harg1 : arg1.IsWhole)
    (arg2 : Memref sig .tc .vmem S2048 .f32) (harg2 : arg2.IsWhole)
    (arg3 : Memref sig .tc .vmem S512x1024 .bf16) (harg3 : arg3.IsWhole)
    (arg4 : Memref sig .tc .vmem S512x1024 .bf16) (harg4 : arg4.IsWhole)
    (x0 : Vec F S512x1024 .bf16) (x1 : Vec F S1024x2048 .bf16) (x2 : Vec F S2048 .f32) (K : PUnit → sProp 𝕄) :
    iprop(owns c arg0 fullShare x0 ∗ owns c arg1 fullShare x1 ∗ owns c arg2 fullShare x2
        ∗ (∃ d, owns c arg3 fullShare d) ∗ (∃ d, owns c arg4 fullShare d)
        ∗ (iprop(owns c arg0 fullShare x0 ∗ owns c arg1 fullShare x1 ∗ owns c arg2 fullShare x2
            ∗ owns c arg3 fullShare (out0_3 x0 x1 x2) ∗ owns c arg4 fullShare (out0_4 x0 x1 x2)) -∗ K ⟨⟩))
      ⊢ wp frame (wpE (defs₀ (F := F)) Variants.none c none) E (cc0__kv_kernel i arg0 harg0 arg1 harg1 arg2 harg2 arg3 harg3 arg4 harg4) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]; swap; isplitl [H1]; swap; isplitl [H2]; swap; isplitl [H3]
  all_goals (iexists _; isplitr; swap; iassumption; ipureintro)
  all_goals first | exact View.read_writes_eq_canon _ _ _ (View.cover_of_tiled _ S512x1024.size (by rfl)) | rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

theorem before0 (c : Dev nD) (t : Fin cfg0.N) :
    (∀ d, (dat0 V c).before 0 t d = iblk0 V c 0 t) ∧ (∀ d, (dat0 V c).before 1 t d = iblk0 V c 1 t)
      ∧ ∀ d, (dat0 V c).before 2 t d = iblk0 V c 2 t := by
  refine ⟨?_, ?_, ?_⟩ <;> exact Dat.before_in_eq_fetched _ _ rfl (fun _ => rfl) (fun _ _ _ => rfl) (fun _ => rfl) t

theorem body_obligation0 (c : Dev nD) : BodyObligation (dat0 (F := F) V c) (defs₀ (F := F)) Variants.none () Set.univ := fun t => by
  simp only [bigSep_W0, before0 V c t, after0_3, after0_4]
  show _ ⊢ wp frame _ _ (bodyAt0 t) fun _ => iprop((dat0 V c).Φ t.castSucc ∗ (dat0 V c).owesAt () t.castSucc ∗ owns _ _ _ (iblk0 V c 0 t)
    ∗ owns _ _ _ (iblk0 V c 1 t) ∗ owns _ _ _ (iblk0 V c 2 t) ∗ _)
  iintro ⟨HΦ, Ho, ⟨%_, H0⟩, ⟨%_, H1⟩, ⟨%_, H2⟩, ⟨%_, H3⟩, ⟨%_, H4⟩⟩
  iapply sound_kernel0
  iframe H0 H1 H2
  isplitl [H3]; · iexists _; iexact H3
  isplitl [H4]; · iexists _; iexact H4
  iintro H; iframe HΦ Ho; iexact H

end Cert.KernelIdeal.Hand

end
-- ==== Proof.Steps.lean ====
import proofs.«405582_j50302656971267_3_alg».proof.Proof.Gen.KernelIdeal.Skeleton

noncomputable section

namespace Cert.KernelIdeal.Hand

open Cert.KernelIdeal Cert.KernelIdeal.Gen Idealize.ShloMosaic Idealize.ShloMosaic.TcCoe

variable {F : FTy → Type} [FloatOps F] [Named F]

/-- The state carried across grid points: running row maximum, denominator, weighted sum, projected queries. -/
structure Scr (F : FTy → Type) [FloatOps F] where
  mx : Vec F S512x1 .f32
  den : Vec F S512x1 .f32
  acc : Vec F S512x1024 .f32
  qry : Vec F S512x1024 .bf16

def reset (e : Vec F S512x1024 .bf16) (wq : Vec F S1024x1024 .bf16) (bq : Vec F S1024 .f32) : Scr F :=
  ⟨k1_pay5, k1_pay6, k1_pay7, k1_pay8 e wq bq⟩

/-- The carried state after one more key/value tile. -/
def step (aq ki : Elt F .i32) (s : Scr F) (kb vb : Vec F S512x1024 .bf16) : Scr F :=
  ⟨k1_pay3 (k1_pay10 aq ki s.qry kb s.mx),
   k1_pay1 (k1_pay12 aq ki s.qry kb s.mx) (k1_pay13 aq ki s.qry kb s.mx s.mx s.den),
   k1_pay2 (k1_pay11 aq ki s.qry kb s.mx s.mx) (k1_pay12 aq ki s.qry kb s.mx) s.acc vb,
   s.qry⟩

def epilogue (s : Scr F) (e32 : Vec F S512x1024 .f32) (g b : Vec F S1024 .f32) : Vec F S512x1024 .bf16 :=
  k1_pay4 s.den s.acc e32 g b

end Cert.KernelIdeal.Hand

end
-- ==== Proof.LibWhole.lean ====
import Idealize.ShloMosaic.Lib.Pipeline.Value
import Idealize.ShloMosaic.Lib.Tactic

noncomputable section

namespace Cert.LibWhole

open Idealize.ShloMosaic Idealize.SL Idealize.SL.RA Idealize.SL.BI
open scoped Idealize.SL.BI
open Idealize.SL.BI.BIBase Idealize.SL.BI.Laws Idealize.SL.ProofMode

variable {nD : Nat} {τ : Topo} {sig : RefSig} {Val : EltTy → Type} [∀ e, Nonempty (Val e)]
variable {Ix : Type} [DecidableEq Ix] {Name : Type} [DecidableEq Name] {U : Type} [URA U] {Lvl : Type}

theorem hz2 : (![0, 0] : Fin 2 → Nat) = fun _ => 0 := funext (Fin.forall_fin_two.2 ⟨rfl, rfl⟩)
theorem hz1 : (![0] : Fin 1 → Nat) = fun _ => 0 := funext (Fin.forall_fin_one.2 rfl)

theorem owns_eq_unread {c : Thread nD τ} {sp : Space} {S : Shape} {e : EltTy} {m : Memref sig c.2.kind sp S e} (h : m.IsWhole)
    (q : PosShare TreeShare) (X : S.Idx → Val e) :
    (owns c m q X : sProp (MT nD τ sig Ix Val Name U Lvl)) = (m.view.loc c ↦[m.view.set]{q} h.unread X) := by
  unfold owns
  refine equiv_iff.mp ⟨?_, ?_⟩ <;> show (_ : sProp (MT nD τ sig Ix Val Name U Lvl)) ⊢ _
  · iintro ⟨%f, %hf, H⟩; obtain rfl := h.eq_unread hf; iexact H
  · iintro H; iexists _; isplitr; · ipureintro; exact h.read_unread X
    iexact H

theorem readAt_unread_whole {κ : Kind} {sp : Space} {S : Shape} {e : EltTy} {m : Memref sig κ sp S e} (h : m.IsWhole)
    {off : Fin S.rank → Nat} (hz : off = fun _ => 0) (inb : ∀ a, off a + S.size a ≤ S.size a) (X : S.Idx → Val e) :
    m.view.readAt Val (Rect.unit off S.size inb).toLoadRect (h.unread X) = X := by
  rw [View.readAt_eq_ld, h.read_unread, View.ld_unit_zero hz]

theorem pt_stored (c : Thread nD τ) {sp : Space} {S : Shape} {e : EltTy} (m : Memref sig c.2.kind sp S e) {h : m.IsWhole}
    {off : Fin S.rank → Nat} (hz : off = fun _ => 0) {inb : ∀ a, off a + S.size a ≤ S.size a} {w : S.Idx → Val e}
    {L : List (View.Piece Val S e)} {q : PosShare TreeShare} :
    (m.view.loc c ↦[m.view.set]{q} m.view.writes Val m.view.junk (⟨Rect.unit off S.size inb, w⟩ :: L) : sProp (MT nD τ sig Ix Val Name U Lvl))
      ⊢ (m.view.loc c ↦[m.view.set]{q} h.unread w) := by
  rw [h.eq_unread ((View.read_writes_junk_eq_canon _ _).trans (View.canon_cons_unit_zero hz inb w L))]

end Cert.LibWhole

end
-- ==== Proof.R1Body.lean ====
import proofs.«405582_j50302656971267_3_alg».proof.Proof.Steps
import proofs.«405582_j50302656971267_3_alg».proof.Proof.Gen.KernelIdeal.Launch
import proofs.«405582_j50302656971267_3_alg».proof.Proof.LibWhole
import Idealize.ShloMosaic.Lib.Ring
import Mathlib.Tactic.FinCases

set_option Elab.async false

noncomputable section

namespace Cert.KernelIdeal.Hand

open Cert.KernelIdeal Cert.KernelIdeal.Gen Cert.LibWhole
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

abbrev tbM1_0 : Memref sig .tc .smem S2x18 .i32 := Memref.whole main_c
abbrev tbM1_1 : Memref sig .tc .smem S2x18 .i32 := Memref.whole main_c_0
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev scM1_3 : Memref sig .tc .vmem S512x1024 .bf16 := Memref.whole cc1_scratch3

def aqW (T0 : S2x18.Idx → Elt F .i32) (i : grid1.Coords) : Elt F .i32 :=
  View.readAt (Elt F) tbM1_0.view (Rect.unit (s := S2x18) (k1_off1 i) S1x1.size (k1_off1_inb i)).toLoadRect T0
    (Shape.Idx.first (numel1_S1x1.symm ▸ Nat.one_pos))

def kiW (T1 : S2x18.Idx → Elt F .i32) (i : grid1.Coords) : Elt F .i32 :=
  View.readAt (Elt F) tbM1_1.view (Rect.unit (s := S2x18) (k1_off1 i) S1x1.size (k1_off1_inb i)).toLoadRect T1
    (Shape.Idx.first (numel1_S1x1.symm ▸ Nat.one_pos))

def scrOwn (c : Dev nD) (s : Scr F) : sProp 𝕄 :=
  iprop(owns (c : Thread nD τ) scM1_0 fullShare s.mx
    ∗ owns (c : Thread nD τ) scM1_1 fullShare s.den
    ∗ owns (c : Thread nD τ) scM1_2 fullShare s.acc
    ∗ owns (c : Thread nD τ) scM1_3 fullShare s.qry)

def tblOwn (c : Dev nD) (q : PosShare TreeShare) (T0 T1 : S2x18.Idx → Elt F .i32) : sProp 𝕄 :=
  iprop((tbM1_0.view.loc (c : Thread nD τ) ↦{q} T0) ∗ (tbM1_1.view.loc (c : Thread nD τ) ↦{q} T1))

def inOwn (c : Dev nD) (arg4 : Memref sig .tc .vmem S512x1024 .bf16) (arg5 : Memref sig .tc .vmem S1024x1024 .bf16) (arg6 : Memref sig .tc .vmem S1024 .f32) (arg7 : Memref sig .tc .vmem S512x1024 .bf16) (arg8 : Memref sig .tc .vmem S512x1024 .bf16) (arg9 : Memref sig .tc .vmem S512x1024 .f32) (arg10 : Memref sig .tc .vmem S1024 .f32) (arg11 : Memref sig .tc .vmem S1024 .f32)
    (x4 : Vec F S512x1024 .bf16) (x5 : Vec F S1024x1024 .bf16) (x6 : Vec F S1024 .f32) (x7 : Vec F S512x1024 .bf16) (x8 : Vec F S512x1024 .bf16) (x9 : Vec F S512x1024 .f32) (x10 : Vec F S1024 .f32) (x11 : Vec F S1024 .f32) : sProp 𝕄 :=
  iprop(owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11)

variable (c : Dev nD) (i : grid1.Coords) (q : PosShare TreeShare)
    (arg4 : Memref sig .tc .vmem S512x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .bf16) (harg12 : arg12.IsWhole)
    (T0 T1 : S2x18.Idx → Elt F .i32) (x4 : Vec F S512x1024 .bf16) (x5 : Vec F S1024x1024 .bf16) (x6 : Vec F S1024 .f32) (x7 : Vec F S512x1024 .bf16) (x8 : Vec F S512x1024 .bf16) (x9 : Vec F S512x1024 .f32) (x10 : Vec F S1024 .f32) (x11 : Vec F S1024 .f32)

/-- The only key tile of its query tile: reset, fold, then the finished rows. -/
theorem sound_kernel1_FL
    (hF : (Scalar.cmpi .ne (Scalar.extui (Scalar.cmpi .eq (kiW T1 i) 0#32)) 0#32 = 1#1)) (hL : (k1_cond2 (aqW T0 i) (kiW T1 i) = 1#1)) (K : PUnit → sProp 𝕄) :
    iprop(tblOwn c q T0 T1
      ∗ inOwn c arg4 arg5 arg6 arg7 arg8 arg9 arg10 arg11 x4 x5 x6 x7 x8 x9 x10 x11
      ∗ (∃ d, owns (c : Thread nD τ) arg12 fullShare d)
      ∗ (∃ s : Scr F, scrOwn c s)
      ∗ (iprop(tblOwn c q T0 T1
          ∗ inOwn c arg4 arg5 arg6 arg7 arg8 arg9 arg10 arg11 x4 x5 x6 x7 x8 x9 x10 x11
          ∗ owns (c : Thread nD τ) arg12 fullShare (epilogue (step (aqW T0 i) (kiW T1 i) (reset x4 x5 x6) x7 x8) x9 x10 x11)
          ∗ scrOwn c (step (aqW T0 i) (kiW T1 i) (reset x4 x5 x6) x7 x8)) -∗ K ⟨⟩))
      ⊢ wp frame (wpE (defs₀ (F := F)) Variants.none c none) Set.univ
          (cc1__flash_ln_kernel i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _) scM1_2 (Memref.isWhole_whole _) scM1_3 (Memref.isWhole_whole _)) K := by
  simp -proj (disch := first | assumption | exact Memref.isWhole_whole _) only [tblOwn, inOwn, scrOwn, owns_eq_unread]
  rw [cc1__flash_ln_kernel_eq_skeleton, cc1__flash_ln_kernel_skel, k1_part1_eq_skeleton, k1_part1_skel]
  iintro ⟨⟨HT0, HT1⟩, ⟨H4, H5, H6, H7, H8, H9, H10, H11⟩, ⟨%d, H12⟩, ⟨%s, HS0, HS1, HS2, HS3⟩, Hk⟩
  sl_exec! (disch := first | exact hF | exact hL)
  sl_step
  sl_unfold_run_names
  simp -proj (disch := first | exact hz2 | exact hz1) only [View.readCov_cons_toLoadRect, readAt_unread_whole]
  iapply Hk
  iframe
  isplitl [H12]; · iapply pt_stored c arg12 hz2; iexact H12
  isplitl [HS0]; · iapply pt_stored c scM1_0 hz2; iexact HS0
  isplitl [HS1]; · iapply pt_stored c scM1_1 hz2; iexact HS1
  isplitl [HS2]; · iapply pt_stored c scM1_2 hz2; iexact HS2
  iapply pt_stored c scM1_3 hz2; iexact HS3

/-- The first of several key tiles: reset and fold; the output block is left as it was. -/
theorem sound_kernel1_Fl (y : Vec F S512x1024 .bf16)
    (hF : (Scalar.cmpi .ne (Scalar.extui (Scalar.cmpi .eq (kiW T1 i) 0#32)) 0#32 = 1#1)) (hL : ¬(k1_cond2 (aqW T0 i) (kiW T1 i) = 1#1)) (K : PUnit → sProp 𝕄) :
    iprop(tblOwn c q T0 T1
      ∗ inOwn c arg4 arg5 arg6 arg7 arg8 arg9 arg10 arg11 x4 x5 x6 x7 x8 x9 x10 x11
      ∗ owns (c : Thread nD τ) arg12 fullShare y
      ∗ (∃ s : Scr F, scrOwn c s)
      ∗ (iprop(tblOwn c q T0 T1
          ∗ inOwn c arg4 arg5 arg6 arg7 arg8 arg9 arg10 arg11 x4 x5 x6 x7 x8 x9 x10 x11
          ∗ owns (c : Thread nD τ) arg12 fullShare y
          ∗ scrOwn c (step (aqW T0 i) (kiW T1 i) (reset x4 x5 x6) x7 x8)) -∗ K ⟨⟩))
      ⊢ wp frame (wpE (defs₀ (F := F)) Variants.none c none) Set.univ
          (cc1__flash_ln_kernel i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _) scM1_2 (Memref.isWhole_whole _) scM1_3 (Memref.isWhole_whole _)) K := by
  simp -proj (disch := first | assumption | exact Memref.isWhole_whole _) only [tblOwn, inOwn, scrOwn, owns_eq_unread]
  rw [cc1__flash_ln_kernel_eq_skeleton, cc1__flash_ln_kernel_skel, k1_part1_eq_skeleton, k1_part1_skel]
  iintro ⟨⟨HT0, HT1⟩, ⟨H4, H5, H6, H7, H8, H9, H10, H11⟩, H12, ⟨%s, HS0, HS1, HS2, HS3⟩, Hk⟩
  sl_exec! (disch := first | exact hF | exact hL)
  sl_step
  sl_unfold_run_names
  simp -proj (disch := first | exact hz2 | exact hz1) only [View.readCov_cons_toLoadRect, readAt_unread_whole]
  iapply Hk
  iframe
  isplitl [HS0]; · iapply pt_stored c scM1_0 hz2; iexact HS0
  isplitl [HS1]; · iapply pt_stored c scM1_1 hz2; iexact HS1
  isplitl [HS2]; · iapply pt_stored c scM1_2 hz2; iexact HS2
  iapply pt_stored c scM1_3 hz2; iexact HS3

/-- The last of several key tiles: fold, then the finished rows. -/
theorem sound_kernel1_fL (s : Scr F)
    (hF : ¬(Scalar.cmpi .ne (Scalar.extui (Scalar.cmpi .eq (kiW T1 i) 0#32)) 0#32 = 1#1)) (hL : (k1_cond2 (aqW T0 i) (kiW T1 i) = 1#1)) (K : PUnit → sProp 𝕄) :
    iprop(tblOwn c q T0 T1
      ∗ inOwn c arg4 arg5 arg6 arg7 arg8 arg9 arg10 arg11 x4 x5 x6 x7 x8 x9 x10 x11
      ∗ (∃ d, owns (c : Thread nD τ) arg12 fullShare d)
      ∗ scrOwn c s
      ∗ (iprop(tblOwn c q T0 T1
          ∗ inOwn c arg4 arg5 arg6 arg7 arg8 arg9 arg10 arg11 x4 x5 x6 x7 x8 x9 x10 x11
          ∗ owns (c : Thread nD τ) arg12 fullShare (epilogue (step (aqW T0 i) (kiW T1 i) s x7 x8) x9 x10 x11)
          ∗ scrOwn c (step (aqW T0 i) (kiW T1 i) s x7 x8)) -∗ K ⟨⟩))
      ⊢ wp frame (wpE (defs₀ (F := F)) Variants.none c none) Set.univ
          (cc1__flash_ln_kernel i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _) scM1_2 (Memref.isWhole_whole _) scM1_3 (Memref.isWhole_whole _)) K := by
  simp -proj (disch := first | assumption | exact Memref.isWhole_whole _) only [tblOwn, inOwn, scrOwn, owns_eq_unread]
  rw [cc1__flash_ln_kernel_eq_skeleton, cc1__flash_ln_kernel_skel, k1_part1_eq_skeleton, k1_part1_skel]
  iintro ⟨⟨HT0, HT1⟩, ⟨H4, H5, H6, H7, H8, H9, H10, H11⟩, ⟨%d, H12⟩, ⟨HS0, HS1, HS2, HS3⟩, Hk⟩
  sl_exec! (disch := first | exact hF | exact hL)
  sl_step
  sl_unfold_run_names
  simp -proj (disch := first | exact hz2 | exact hz1) only [View.readCov_cons_toLoadRect, readAt_unread_whole]
  iapply Hk
  iframe
  isplitl [H12]; · iapply pt_stored c arg12 hz2; iexact H12
  isplitl [HS0]; · iapply pt_stored c scM1_0 hz2; iexact HS0
  isplitl [HS1]; · iapply pt_stored c scM1_1 hz2; iexact HS1
  isplitl [HS2]; · iapply pt_stored c scM1_2 hz2; iexact HS2
  iexact HS3

/-- A middle key tile: fold only. -/
theorem sound_kernel1_fl (s : Scr F) (y : Vec F S512x1024 .bf16)
    (hF : ¬(Scalar.cmpi .ne (Scalar.extui (Scalar.cmpi .eq (kiW T1 i) 0#32)) 0#32 = 1#1)) (hL : ¬(k1_cond2 (aqW T0 i) (kiW T1 i) = 1#1)) (K : PUnit → sProp 𝕄) :
    iprop(tblOwn c q T0 T1
      ∗ inOwn c arg4 arg5 arg6 arg7 arg8 arg9 arg10 arg11 x4 x5 x6 x7 x8 x9 x10 x11
      ∗ owns (c : Thread nD τ) arg12 fullShare y
      ∗ scrOwn c s
      ∗ (iprop(tblOwn c q T0 T1
          ∗ inOwn c arg4 arg5 arg6 arg7 arg8 arg9 arg10 arg11 x4 x5 x6 x7 x8 x9 x10 x11
          ∗ owns (c : Thread nD τ) arg12 fullShare y
          ∗ scrOwn c (step (aqW T0 i) (kiW T1 i) s x7 x8)) -∗ K ⟨⟩))
      ⊢ wp frame (wpE (defs₀ (F := F)) Variants.none c none) Set.univ
          (cc1__flash_ln_kernel i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _) scM1_2 (Memref.isWhole_whole _) scM1_3 (Memref.isWhole_whole _)) K := by
  simp -proj (disch := first | assumption | exact Memref.isWhole_whole _) only [tblOwn, inOwn, scrOwn, owns_eq_unread]
  rw [cc1__flash_ln_kernel_eq_skeleton, cc1__flash_ln_kernel_skel, k1_part1_eq_skeleton, k1_part1_skel]
  iintro ⟨⟨HT0, HT1⟩, ⟨H4, H5, H6, H7, H8, H9, H10, H11⟩, H12, ⟨HS0, HS1, HS2, HS3⟩, Hk⟩
  sl_exec! (disch := first | exact hF | exact hL)
  sl_step
  sl_unfold_run_names
  simp -proj (disch := first | exact hz2 | exact hz1) only [View.readCov_cons_toLoadRect, readAt_unread_whole]
  iapply Hk
  iframe
  isplitl [HS0]; · iapply pt_stored c scM1_0 hz2; iexact HS0
  isplitl [HS1]; · iapply pt_stored c scM1_1 hz2; iexact HS1
  isplitl [HS2]; · iapply pt_stored c scM1_2 hz2; iexact HS2
  iexact HS3

end Cert.KernelIdeal.Hand

end
-- ==== Proof.LibSched.lean ====
namespace Cert.LibSched

/-- The query tile number and the key tile number of each of the 36 grid points, in grid order. -/
def aqList : List Nat := [0, 7, 7, 7, 7, 7, 7, 7, 7, 1, 1, 6, 6, 6, 6, 6, 6, 6, 2, 2, 2, 5, 5, 5, 5, 5, 5, 3, 3, 3, 3, 4, 4, 4, 4, 4]
def kiList : List Nat := [0, 0, 1, 2, 3, 4, 5, 6, 7, 0, 1, 0, 1, 2, 3, 4, 5, 6, 0, 1, 2, 0, 1, 2, 3, 4, 5, 0, 1, 2, 3, 0, 1, 2, 3, 4]

/-- The schedule the lists spell: `ki ≤ aq ≤ 7`; a point with `ki ≠ 0` follows one of the same query tile and the key tile before; `ki = aq` exactly at the grid's last point or where the next point's query tile differs. -/
theorem sched_le : ∀ n, n < 36 → kiList.getD n 0 ≤ aqList.getD n 0 ∧ aqList.getD n 0 ≤ 7 := by decide
theorem sched_prev : ∀ n, n < 36 → kiList.getD n 0 ≠ 0 →
    n ≠ 0 ∧ aqList.getD (n - 1) 0 = aqList.getD n 0 ∧ kiList.getD (n - 1) 0 + 1 = kiList.getD n 0 := by decide
theorem sched_next : ∀ n, n < 36 →
    (kiList.getD n 0 = aqList.getD n 0 ↔ (n + 1 = 36 ∨ aqList.getD (n + 1) 0 ≠ aqList.getD n 0)) := by decide

/-- A tile number is at most 7, so its word's value is the number itself. -/
theorem toNat_tile {n : Nat} (hn : n ≤ 7) : (BitVec.ofNat 32 n).toNat = n := by
  rw [BitVec.toNat_ofNat]; exact Nat.mod_eq_of_lt (by omega)

end Cert.LibSched
-- ==== Proof.R1Dat.lean ====
import proofs.«405582_j50302656971267_3_alg».proof.Proof.R1Body
import proofs.«405582_j50302656971267_3_alg».proof.Proof.LibSched
import Idealize.ShloMosaic.Lib.Pipeline.Kit
import Idealize.ShloMosaic.Lib.Pipeline.TableIdle
import Idealize.ShloMosaic.Lib.Pipeline.FrameBody
import Idealize.ShloMosaic.Lib.Pipeline.Regions
import Idealize.ShloMosaic.Lib.Affine
import Idealize.ShloMosaic.Lib.Decide
import Idealize.ShloMosaic.Lib.Tactic
set_option Elab.async false
noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibSched
variable {F : FTy → Type} [FloatOps F] [Named F]

local notation "𝕄" => MT nD τ sig Unit (Elt F) ℕ (UR sig nD τ) ℕ

def T0c : S2x18.Idx → BitVec 32 := fun i => lit0 (S2x18.rowMajor i)
def T1c : S2x18.Idx → BitVec 32 := fun i => lit1 (S2x18.rowMajor i)
def pf1 : pre1.Contents (Elt F) := fun
  | ⟨0, _⟩ => T0c
  | ⟨1, _⟩ => T1c
  | ⟨_ + 2, h⟩ => absurd h (Nat.not_lt.2 (Nat.le_add_left _ _))

def tabW (T : S2x18.Idx → BitVec 32) (i : grid1.Coords) : BitVec 32 :=
  T ((Rect.unit (s := S2x18) (k1_off1 i) S1x1.size (k1_off1_inb i)).emb (Shape.Idx.first (numel1_S1x1.symm ▸ Nat.one_pos)))

theorem tab_aq : ∀ t : Fin grid1.N, tabW T0c (grid1.coords t) = BitVec.ofNat 32 (aqList.getD t.val 0) := by decide +kernel
theorem tab_ki : ∀ t : Fin grid1.N, tabW T1c (grid1.coords t) = BitVec.ofNat 32 (kiList.getD t.val 0) := by decide +kernel
theorem tab0_le : ∀ i : grid1.Coords, (tabW T0c i).toNat ≤ 7 := by decide +kernel
theorem tab1_le : ∀ i : grid1.Coords, (tabW T1c i).toNat ≤ 7 := by decide +kernel
theorem blk_inb {v : ℕ} (hv : v ≤ 7) : ∀ a : Fin 2, ((![v, (0#32 : BitVec 32).toNat] : Fin 2 → ℕ) a + 1) * S512x1024.size a ≤ S4096x1024.size a
  | ⟨0, _⟩ => by show (v + 1) * 512 ≤ 4096; omega
  | ⟨1, _⟩ => by show (0 + 1) * 1024 ≤ 1024; omega
  | ⟨_ + 2, h⟩ => absurd h (by omega)

theorem ok_pf1 : ok1 (F := F) pf1 :=
  ⟨fun i => ⟨blk_inb (tab0_le i), .inr (Affine.block_words_dvd (of_decide_eq_true rfl) (by decide))⟩,
   fun i => ⟨blk_inb (tab1_le i), .inr (Affine.block_words_dvd (of_decide_eq_true rfl) (by decide))⟩,
   fun i => ⟨blk_inb (tab1_le i), .inr (Affine.block_words_dvd (of_decide_eq_true rfl) (by decide))⟩,
   fun i => ⟨blk_inb (tab0_le i), .inl rfl⟩,
   fun i => ⟨blk_inb (tab0_le i), .inr (Affine.block_words_dvd (of_decide_eq_true rfl) (by decide))⟩⟩

abbrev adm : (p : Fin 3) → (pcfgs (F := F) p).Adm
  | ⟨0, _⟩ => cfg0.toPCfg_adm
  | ⟨1, _⟩ => ⟨pf1, ok_pf1⟩
  | ⟨2, _⟩ => cfg2.toPCfg_adm
  | ⟨_ + 3, h⟩ => absurd h (by omega)

theorem adm_tab0 : (adm (F := F) 1).1 0 = fun i => lit0 (S2x18.rowMajor i) := rfl
theorem adm_tab1 : (adm (F := F) 1).1 1 = fun i => lit1 (S2x18.rowMajor i) := rfl

variable (F) in
abbrev cfg1 : Pipeline.Cfg sig Λ₀ := Pipeline.pin (pcfgs (F := F)) adm 1

theorem N1 : (cfg1 F).N = 36 := N_1
theorem lt36 (t : Fin (cfg1 F).N) : t.val < 36 := by have h := t.isLt; have hN := N1 (F := F); omega

theorem cmp_first : ∀ n, n < 8 →
    ((Scalar.cmpi .ne (Scalar.extui (Scalar.cmpi .eq (BitVec.ofNat 32 n) 0#32)) 0#32 = 1#1) ↔ n = 0) := by decide
theorem cmp_last : ∀ a, a < 8 → ∀ k, k < 8 → ((k1_cond2 (BitVec.ofNat 32 a) (BitVec.ofNat 32 k) = 1#1) ↔ k = a) := by decide

theorem off1_in (i : grid1.Coords) : ∀ a, k1_off1 i a + 1 ≤ S2x18.size a
  | ⟨0, _⟩ => k1_off1_inb i 0
  | ⟨1, _⟩ => k1_off1_inb i 1

/-- The tables read at a point's own offsets are the tables' words there. -/
theorem atD_tab (T : S2x18.Idx → BitVec 32) (i : grid1.Coords) :
    (if h : ∀ a, k1_off1 i a + 1 ≤ S2x18.size a then T (fun a => ⟨k1_off1 i a, h a⟩) else default) = tabW T i := by
  rw [dif_pos (off1_in i)]; unfold tabW; congr 1
theorem atD_pf1_0 (i : grid1.Coords) : (pf1 (F := F)).atD 0 (k1_off1 i) = tabW T0c i := atD_tab T0c i
theorem atD_pf1_1 (i : grid1.Coords) : (pf1 (F := F)).atD 1 (k1_off1 i) = tabW T1c i := atD_tab T1c i

def aqAt (t : Fin (cfg1 F).N) : ℕ := aqList.getD t.val 0
def kiAt (t : Fin (cfg1 F).N) : ℕ := kiList.getD t.val 0
abbrev firstAt (t : Fin (cfg1 F).N) : Prop := kiAt t = 0
abbrev lastAt (t : Fin (cfg1 F).N) : Prop := kiAt t = aqAt t

theorem aqW_at (t : Fin (cfg1 F).N) : aqW (F := F) T0c ((cfg1 F).grid.coords t) = BitVec.ofNat 32 (aqAt t) := tab_aq t
theorem kiW_at (t : Fin (cfg1 F).N) : kiW (F := F) T1c ((cfg1 F).grid.coords t) = BitVec.ofNat 32 (kiAt t) := tab_ki t

theorem kiAt_le_aqAt (t : Fin (cfg1 F).N) : kiAt t ≤ aqAt t := (sched_le t.val (lt36 t)).1
theorem aqAt_le (t : Fin (cfg1 F).N) : aqAt t ≤ 7 := (sched_le t.val (lt36 t)).2

theorem prev_of_not_first (t : Fin (cfg1 F).N) (h : ¬ firstAt t) :
    ∃ h0 : t.val ≠ 0, aqAt (⟨t.val - 1, by omega⟩ : Fin (cfg1 F).N) = aqAt t ∧ kiAt (⟨t.val - 1, by omega⟩ : Fin (cfg1 F).N) + 1 = kiAt t :=
  have hp := sched_prev t.val (lt36 t) h
  ⟨hp.1, hp.2.1, hp.2.2⟩

theorem firstAt_zero (t : Fin (cfg1 F).N) (h : t.val = 0) : firstAt t := by
  show kiList.getD t.val 0 = 0
  rw [h]; rfl

theorem condF_iff (t : Fin (cfg1 F).N) :
    (Scalar.cmpi .ne (Scalar.extui (Scalar.cmpi .eq (kiW (F := F) T1c ((cfg1 F).grid.coords t)) 0#32)) 0#32 = 1#1) ↔ firstAt t := by
  rw [kiW_at t]
  exact cmp_first (kiAt t) (by have := kiAt_le_aqAt t; have := aqAt_le t; omega)
theorem condL_iff (t : Fin (cfg1 F).N) :
    (k1_cond2 (aqW (F := F) T0c ((cfg1 F).grid.coords t)) (kiW (F := F) T1c ((cfg1 F).grid.coords t)) = 1#1) ↔ lastAt t := by
  rw [aqW_at t, kiW_at t]
  exact cmp_last (aqAt t) (by have := aqAt_le t; omega) (kiAt t) (by have := kiAt_le_aqAt t; have := aqAt_le t; omega)

theorem aq_nat (t : Fin (cfg1 F).N) : (tabW T0c (grid1.coords t)).toNat = aqAt t := by
  rw [tab_aq t]; exact toNat_tile (aqAt_le t)
theorem ki_nat (t : Fin (cfg1 F).N) : (tabW T1c (grid1.coords t)).toNat = kiAt t := by
  rw [tab_ki t]; exact toNat_tile ((kiAt_le_aqAt t).trans (aqAt_le t))

theorem index1_0 (t : Fin (cfg1 F).N) : ((cfg1 F).win (0 : Fin 9)).index t = ![aqAt t, 0] := congrArg (![·, 0]) (aq_nat t)
theorem index1_1 (t : Fin (cfg1 F).N) : ((cfg1 F).win (1 : Fin 9)).index t = ![0, 0] := rfl
theorem index1_2 (t : Fin (cfg1 F).N) : ((cfg1 F).win (2 : Fin 9)).index t = ![0] := rfl
theorem index1_3 (t : Fin (cfg1 F).N) : ((cfg1 F).win (3 : Fin 9)).index t = ![kiAt t, 0] := congrArg (![·, 0]) (ki_nat t)
theorem index1_4 (t : Fin (cfg1 F).N) : ((cfg1 F).win (4 : Fin 9)).index t = ![kiAt t, 0] := congrArg (![·, 0]) (ki_nat t)
theorem index1_5 (t : Fin (cfg1 F).N) : ((cfg1 F).win (5 : Fin 9)).index t = ![aqAt t, 0] := congrArg (![·, 0]) (aq_nat t)
theorem index1_6 (t : Fin (cfg1 F).N) : ((cfg1 F).win (6 : Fin 9)).index t = ![0] := rfl
theorem index1_7 (t : Fin (cfg1 F).N) : ((cfg1 F).win (7 : Fin 9)).index t = ![0] := rfl
theorem index1_8 (t : Fin (cfg1 F).N) : ((cfg1 F).win (8 : Fin 9)).index t = ![aqAt t, 0] := congrArg (![·, 0]) (aq_nat t)

theorem flush1_8 (t : Fin (cfg1 F).N) : ((cfg1 F).win (8 : Fin 9)).flush t = true ↔ lastAt t := by
  have hlt := lt36 t
  have hN : (cfg1 F).N = 36 := N1 (F := F)
  refine Iff.trans ?_ (sched_next t.val hlt).symm
  unfold Pipeline.Window.flush
  rw [show ((cfg1 F).win (8 : Fin 9)).isOut = true from rfl, Bool.true_and, Bool.or_eq_true, decide_eq_true_eq, decide_eq_true_eq]
  constructor
  · rintro (h | ⟨h, hne⟩)
    · exact Or.inl (h.trans hN)
    · refine Or.inr fun e => hne ?_
      rw [index1_8, index1_8]
      exact congrArg (fun a => ![a, 0]) e
  · rintro (h | hne)
    · exact Or.inl (h.trans hN.symm)
    · by_cases h1 : t.val + 1 < (cfg1 F).N
      · refine Or.inr ⟨h1, fun e => hne ?_⟩
        rw [index1_8, index1_8] at e
        exact congrFun e 0
      · exact Or.inl (by have hN' : (cfg1 F).grid.N = 36 := hN; have h1' : ¬ t.val + 1 < (cfg1 F).grid.N := h1; omega)

theorem idle1_8 (t : Fin (cfg1 F).N) : (cfg1 F).idle (8 : Fin 9) ((cfg1 F).grid.coords t) = true ↔ ¬ lastAt t := by
  show (!(k1_cond2 ((pf1 (F := F)).atD 0 (k1_off1 (grid1.coords t))) ((pf1 (F := F)).atD 1 (k1_off1 (grid1.coords t))) == 1#1)) = true ↔ _
  rw [atD_pf1_0, atD_pf1_1, tab_aq t, tab_ki t, Bool.not_eq_true', beq_eq_false_iff_ne]
  exact (cmp_last (aqAt t) (by have := aqAt_le t; omega) (kiAt t) (by have := kiAt_le_aqAt t; have := aqAt_le t; omega)).not

theorem fresh1_8 (t : Fin (cfg1 F).N) : (cfg1 F).fresh (8 : Fin 9) t.val = true :=
  (cfg1 F).fresh_tab (8 : Fin 9) (fun _ => true) rfl (fun u => by
    show true = (((cfg1 F).win (8 : Fin 9)).flush u || ((cfg1 F).idle (8 : Fin 9) ((cfg1 F).grid.coords u) && true))
    by_cases hl : lastAt u
    · rw [(flush1_8 u).mpr hl]; rfl
    · rw [(idle1_8 u).mpr hl, Bool.and_true, Bool.or_true]) t.val (Nat.le_of_lt t.isLt)

section Region
variable (V : (c : Dev nD) → (b : Ref sig .tc) → Buf (Elt F) ((c : Thread nD τ).loc b))

def iblk1 (c : Dev nD) (w : Fin (cfg1 F).W) (t : Fin (cfg1 F).N) : (((cfg1 F).win w).xblock ((cfg1 F).grid.coords t)).Idx → Elt F ((cfg1 F).win w).elt :=
  (((cfg1 F).win w).blk t).view.read (Elt F) (V c (Pipeline.arrRef spec1 w))

def scrAny : Scr F :=
  ⟨fun _ => (Elt.inhabited F .f32).default, fun _ => (Elt.inhabited F .f32).default, fun _ => (Elt.inhabited F .f32).default, fun _ => (Elt.inhabited F .bf16).default⟩
def outAny : Vec F S512x1024 .bf16 := fun _ => (Elt.inhabited F .bf16).default

def step1 (c : Dev nD) (t : Fin (cfg1 F).N) (prev : Scr F × Vec F S512x1024 .bf16) : Scr F × Vec F S512x1024 .bf16 :=
  let s' : Scr F := step (BitVec.ofNat 32 (aqAt t)) (BitVec.ofNat 32 (kiAt t))
    (if firstAt t then reset (iblk1 V c (0 : Fin 9) t) (iblk1 V c (1 : Fin 9) t) (iblk1 V c (2 : Fin 9) t) else prev.1)
    (iblk1 V c (3 : Fin 9) t) (iblk1 V c (4 : Fin 9) t)
  (s', if lastAt t then epilogue s' (iblk1 V c (5 : Fin 9) t) (iblk1 V c (6 : Fin 9) t) (iblk1 V c (7 : Fin 9) t) else prev.2)

def traj1 (c : Dev nD) : (n : ℕ) → n < (cfg1 F).N → Scr F × Vec F S512x1024 .bf16
  | 0, h => step1 V c ⟨0, h⟩ (scrAny, outAny)
  | n + 1, h => step1 V c ⟨n + 1, h⟩ (traj1 c n (Nat.lt_of_succ_lt h))

theorem traj1_step (c : Dev nD) (t : Fin (cfg1 F).N) :
    traj1 V c t.val t.isLt = step1 V c t (if h0 : t.val = 0 then (scrAny, outAny) else traj1 V c (t.val - 1) (by omega)) := by
  obtain ⟨n, hn⟩ := t
  cases n with
  | zero => rfl
  | succ n => rfl

theorem step1_fst (c : Dev nD) (t : Fin (cfg1 F).N) (prev : Scr F × Vec F S512x1024 .bf16) :
    (step1 V c t prev).1 = step (BitVec.ofNat 32 (aqAt t)) (BitVec.ofNat 32 (kiAt t))
      (if firstAt t then reset (iblk1 V c (0 : Fin 9) t) (iblk1 V c (1 : Fin 9) t) (iblk1 V c (2 : Fin 9) t) else prev.1)
      (iblk1 V c (3 : Fin 9) t) (iblk1 V c (4 : Fin 9) t) := rfl
theorem step1_snd (c : Dev nD) (t : Fin (cfg1 F).N) (prev : Scr F × Vec F S512x1024 .bf16) :
    (step1 V c t prev).2 = if lastAt t then epilogue (step1 V c t prev).1 (iblk1 V c (5 : Fin 9) t) (iblk1 V c (6 : Fin 9) t) (iblk1 V c (7 : Fin 9) t) else prev.2 := rfl

theorem traj1_first (c : Dev nD) (t : Fin (cfg1 F).N) (h : firstAt t) :
    (traj1 V c t.val t.isLt).1 = step (BitVec.ofNat 32 (aqAt t)) (BitVec.ofNat 32 (kiAt t))
      (reset (iblk1 V c (0 : Fin 9) t) (iblk1 V c (1 : Fin 9) t) (iblk1 V c (2 : Fin 9) t)) (iblk1 V c (3 : Fin 9) t) (iblk1 V c (4 : Fin 9) t) := by
  rw [traj1_step, step1_fst, if_pos h]
theorem traj1_next (c : Dev nD) (t : Fin (cfg1 F).N) (h : ¬ firstAt t) (h0 : t.val ≠ 0) :
    (traj1 V c t.val t.isLt).1 = step (BitVec.ofNat 32 (aqAt t)) (BitVec.ofNat 32 (kiAt t))
      (traj1 V c (t.val - 1) (by omega)).1 (iblk1 V c (3 : Fin 9) t) (iblk1 V c (4 : Fin 9) t) := by
  rw [traj1_step, step1_fst, if_neg h, dif_neg h0]
theorem traj1_out (c : Dev nD) (t : Fin (cfg1 F).N) (h : lastAt t) :
    (traj1 V c t.val t.isLt).2 = epilogue (traj1 V c t.val t.isLt).1 (iblk1 V c (5 : Fin 9) t) (iblk1 V c (6 : Fin 9) t) (iblk1 V c (7 : Fin 9) t) := by
  rw [traj1_step, step1_snd, if_pos h]

def scrBefore1 (c : Dev nD) (t : Fin ((cfg1 F).N + 1)) : Scr F :=
  if h : t.val = 0 then scrAny else (traj1 V c (t.val - 1) (by omega)).1

abbrev scr1 : List (Ref sig .tc) := [cc1_scratch0, cc1_scratch1, cc1_scratch2, cc1_scratch3]

def Phi1 (c : Dev nD) (t : Fin ((cfg1 F).N + 1)) : sProp 𝕄 :=
  iprop((∃ s : Scr F, ⌜t.val ≠ 0 → s = scrBefore1 V c t⌝ ∗ scrOwn c s)
    ∗ tblOwn c fullShare T0c T1c
    ∗ Pipeline.scopedRestBut (Ix := Unit) (Name := ℕ) (U := UR sig nD τ) (Lvl := ℕ) (Val := Elt F) spec1 c scr1
    ∗ ∃ r, prngReg c r)

def dat1 (c : Dev nD) : Dat τ (Elt F) Unit ℕ (UR sig nD τ) ℕ (cfg1 F) c where
  A w := V c (Pipeline.arrRef spec1 w)
  after w t := match w with
    | ⟨0, _⟩ => iblk1 V c (0 : Fin 9) t
    | ⟨1, _⟩ => iblk1 V c (1 : Fin 9) t
    | ⟨2, _⟩ => iblk1 V c (2 : Fin 9) t
    | ⟨3, _⟩ => iblk1 V c (3 : Fin 9) t
    | ⟨4, _⟩ => iblk1 V c (4 : Fin 9) t
    | ⟨5, _⟩ => iblk1 V c (5 : Fin 9) t
    | ⟨6, _⟩ => iblk1 V c (6 : Fin 9) t
    | ⟨7, _⟩ => iblk1 V c (7 : Fin 9) t
    | ⟨8, _⟩ => (traj1 V c t.val t.isLt).2
  Φ t := Phi1 V c t
  q _ := fullShare
  owed _ := 0

theorem A_eq1 (c : Dev nD) (w : Fin (cfg1 F).W) : (dat1 V c).A w = V c (Pipeline.arrRef spec1 w) := by
  dsimp only [dat1]

theorem after1_8 (c : Dev nD) (t : Fin (cfg1 F).N) : (dat1 V c).after (8 : Fin 9) t = (traj1 V c t.val t.isLt).2 := by dsimp only [dat1]

theorem before1_0 (c : Dev nD) (t : Fin (cfg1 F).N) (d) : (dat1 V c).before (0 : Fin 9) t d = iblk1 V c (0 : Fin 9) t :=
  (dat1 V c).before_in_eq_fetched (0 : Fin 9) rfl (fun _ => rfl) (fun _ _ _ => rfl) (fun _ => rfl) t d
theorem before1_1 (c : Dev nD) (t : Fin (cfg1 F).N) (d) : (dat1 V c).before (1 : Fin 9) t d = iblk1 V c (1 : Fin 9) t :=
  (dat1 V c).before_in_eq_fetched (1 : Fin 9) rfl (fun _ => rfl) (fun _ _ _ => rfl) (fun _ => rfl) t d
theorem before1_2 (c : Dev nD) (t : Fin (cfg1 F).N) (d) : (dat1 V c).before (2 : Fin 9) t d = iblk1 V c (2 : Fin 9) t :=
  (dat1 V c).before_in_eq_fetched (2 : Fin 9) rfl (fun _ => rfl) (fun _ _ _ => rfl) (fun _ => rfl) t d
theorem before1_3 (c : Dev nD) (t : Fin (cfg1 F).N) (d) : (dat1 V c).before (3 : Fin 9) t d = iblk1 V c (3 : Fin 9) t :=
  (dat1 V c).before_in_eq_fetched (3 : Fin 9) rfl (fun _ => rfl) (fun _ _ _ => rfl) (fun _ => rfl) t d
theorem before1_4 (c : Dev nD) (t : Fin (cfg1 F).N) (d) : (dat1 V c).before (4 : Fin 9) t d = iblk1 V c (4 : Fin 9) t :=
  (dat1 V c).before_in_eq_fetched (4 : Fin 9) rfl (fun _ => rfl) (fun _ _ _ => rfl) (fun _ => rfl) t d
theorem before1_5 (c : Dev nD) (t : Fin (cfg1 F).N) (d) : (dat1 V c).before (5 : Fin 9) t d = iblk1 V c (5 : Fin 9) t :=
  (dat1 V c).before_in_eq_fetched (5 : Fin 9) rfl (fun _ => rfl) (fun _ _ _ => rfl) (fun _ => rfl) t d
theorem before1_6 (c : Dev nD) (t : Fin (cfg1 F).N) (d) : (dat1 V c).before (6 : Fin 9) t d = iblk1 V c (6 : Fin 9) t :=
  (dat1 V c).before_in_eq_fetched (6 : Fin 9) rfl (fun _ => rfl) (fun _ _ _ => rfl) (fun _ => rfl) t d
theorem before1_7 (c : Dev nD) (t : Fin (cfg1 F).N) (d) : (dat1 V c).before (7 : Fin 9) t d = iblk1 V c (7 : Fin 9) t :=
  (dat1 V c).before_in_eq_fetched (7 : Fin 9) rfl (fun _ => rfl) (fun _ _ _ => rfl) (fun _ => rfl) t d
theorem before1_8 (c : Dev nD) (t : Fin (cfg1 F).N) (d) : (dat1 V c).before (8 : Fin 9) t d = d := by
  rw [(dat1 V c).before_out_traj (8 : Fin 9) rfl (fun _ _ => rfl)
    (fun t _ _ hf => absurd ((fresh1_8 t).symm.trans hf) (by decide)) t.val t rfl d, fresh1_8 t, if_pos rfl]

theorem scrBefore1_succ (c : Dev nD) (t : Fin (cfg1 F).N) : scrBefore1 V c t.succ = (traj1 V c t.val t.isLt).1 := by
  unfold scrBefore1; rw [dif_neg (by simp)]; rfl
theorem scrBefore1_castSucc (c : Dev nD) (t : Fin (cfg1 F).N) (h0 : t.val ≠ 0) :
    scrBefore1 V c t.castSucc = (traj1 V c (t.val - 1) (by omega)).1 := by
  unfold scrBefore1
  simp only [Fin.coe_castSucc]
  rw [dif_neg h0]

abbrev ms1_0 (t : Fin (cfg1 F).N) : Memref sig .tc .vmem S512x1024 .bf16 := spec1_0.stage ((cfg1 F).slots t (0 : Fin 9))
abbrev ms1_1 (t : Fin (cfg1 F).N) : Memref sig .tc .vmem S1024x1024 .bf16 := spec1_1.stage ((cfg1 F).slots t (1 : Fin 9))
abbrev ms1_2 (t : Fin (cfg1 F).N) : Memref sig .tc .vmem S1024 .f32 := spec1_2.stage ((cfg1 F).slots t (2 : Fin 9))
abbrev ms1_3 (t : Fin (cfg1 F).N) : Memref sig .tc .vmem S512x1024 .bf16 := spec1_3.stage ((cfg1 F).slots t (3 : Fin 9))
abbrev ms1_4 (t : Fin (cfg1 F).N) : Memref sig .tc .vmem S512x1024 .bf16 := spec1_4.stage ((cfg1 F).slots t (4 : Fin 9))
abbrev ms1_5 (t : Fin (cfg1 F).N) : Memref sig .tc .vmem S512x1024 .f32 := spec1_5.stage ((cfg1 F).slots t (5 : Fin 9))
abbrev ms1_6 (t : Fin (cfg1 F).N) : Memref sig .tc .vmem S1024 .f32 := spec1_6.stage ((cfg1 F).slots t (6 : Fin 9))
abbrev ms1_7 (t : Fin (cfg1 F).N) : Memref sig .tc .vmem S1024 .f32 := spec1_7.stage ((cfg1 F).slots t (7 : Fin 9))
abbrev ms1_8 (t : Fin (cfg1 F).N) : Memref sig .tc .vmem S512x1024 .bf16 := spec1_8.stage ((cfg1 F).slots t (8 : Fin 9))

abbrev bodyAt1 (t : Fin (cfg1 F).N) : Prog (TpuEff nD τ sig (Elt F) Λ₀ .tc) PUnit :=
  cc1__flash_ln_kernel ((cfg1 F).grid.coords t) tbM1_0 (Memref.isWhole_whole _) tbM1_1 (Memref.isWhole_whole _)
    (ms1_0 t) (stage_whole1 0 _) (ms1_1 t) (stage_whole1 1 _) (ms1_2 t) (stage_whole1 2 _) (ms1_3 t) (stage_whole1 3 _) (ms1_4 t) (stage_whole1 4 _)
    (ms1_5 t) (stage_whole1 5 _) (ms1_6 t) (stage_whole1 6 _) (ms1_7 t) (stage_whole1 7 _) (ms1_8 t) (stage_whole1 8 _)
    scM1_0 (Memref.isWhole_whole _) scM1_1 (Memref.isWhole_whole _) scM1_2 (Memref.isWhole_whole _) scM1_3 (Memref.isWhole_whole _)

/-- The eight input blocks of point `t`, owned. -/
def inAt (c : Dev nD) (t : Fin (cfg1 F).N) : sProp 𝕄 :=
  inOwn c (ms1_0 t) (ms1_1 t) (ms1_2 t) (ms1_3 t) (ms1_4 t) (ms1_5 t) (ms1_6 t) (ms1_7 t)
    (iblk1 V c (0 : Fin 9) t) (iblk1 V c (1 : Fin 9) t) (iblk1 V c (2 : Fin 9) t) (iblk1 V c (3 : Fin 9) t) (iblk1 V c (4 : Fin 9) t) (iblk1 V c (5 : Fin 9) t) (iblk1 V c (6 : Fin 9) t) (iblk1 V c (7 : Fin 9) t)

/-- The output block's part of what a point returns: the finished rows at a last key tile, else the block as found. -/
def out8 (c : Dev nD) (t : Fin (cfg1 F).N) : sProp 𝕄 :=
  match (cfg1 F).idle (8 : Fin 9) ((cfg1 F).grid.coords t) with
  | true =>
    match ((cfg1 F).win (8 : Fin 9)).flush t with
    | false => iprop(∃ d, owns (c : Thread nD τ) (ms1_8 t) fullShare ((dat1 V c).before (8 : Fin 9) t d))
    | true => owns (c : Thread nD τ) (ms1_8 t) fullShare ((dat1 V c).after (8 : Fin 9) t)
  | false => owns (c : Thread nD τ) (ms1_8 t) fullShare ((dat1 V c).after (8 : Fin 9) t)

/-- Any contents serve where the block is returned as found; at a last key tile they must be the trajectory's. -/
theorem out8_of (c : Dev nD) (t : Fin (cfg1 F).N) (x : Vec F S512x1024 .bf16) (hx : lastAt t → x = (traj1 V c t.val t.isLt).2) :
    owns (c : Thread nD τ) (ms1_8 t) fullShare x ⊢ out8 V c t := by
  unfold out8
  by_cases hL : lastAt t
  · rw [show (cfg1 F).idle (8 : Fin 9) ((cfg1 F).grid.coords t) = false from Bool.eq_false_iff.mpr fun h => (idle1_8 t).mp h hL]
    simp only [after1_8 V c, hx hL]
    iintro H; iexact H
  · rw [(idle1_8 t).mpr hL, show ((cfg1 F).win (8 : Fin 9)).flush t = false from Bool.eq_false_iff.mpr fun h => hL ((flush1_8 t).mp h)]
    simp only [before1_8 V c]
    iintro H; iexists x; iexact H

/-- From carried buffers that agree with the trajectory before `t`, one step gives the trajectory's after `t`. -/
theorem step1_traj (c : Dev nD) (t : Fin (cfg1 F).N) (s : Scr F) (y : Vec F S512x1024 .bf16)
    (hs : t.castSucc.val ≠ 0 → s = scrBefore1 V c t.castSucc) :
    (step1 V c t (s, y)).1 = scrBefore1 V c t.succ ∧ (lastAt t → (step1 V c t (s, y)).2 = (traj1 V c t.val t.isLt).2) := by
  have e : (step1 V c t (s, y)).1 = (traj1 V c t.val t.isLt).1 := by
    rw [traj1_step, step1_fst, step1_fst]
    by_cases hF : firstAt t
    · rw [if_pos hF, if_pos hF]
    · have h0 : t.val ≠ 0 := fun e0 => hF (firstAt_zero t e0)
      rw [if_neg hF, if_neg hF, dif_neg h0, hs (by rw [Fin.coe_castSucc]; exact h0), scrBefore1_castSucc V c t h0]
  refine ⟨e.trans (scrBefore1_succ V c t).symm, fun hL => ?_⟩
  rw [traj1_out V c t hL, ← e, step1_snd, if_pos hL]

/-- The body at point `t` takes the carried buffers `s` and the output block `y` to `step1 t (s, y)`: its two tests on the tile numbers pick the run. -/
theorem kernel_at (c : Dev nD) (t : Fin (cfg1 F).N) (s : Scr F) (y : Vec F S512x1024 .bf16) (K : PUnit → sProp 𝕄) :
    iprop(tblOwn c fullShare T0c T1c ∗ inAt V c t ∗ owns (c : Thread nD τ) (ms1_8 t) fullShare y ∗ scrOwn c s
      ∗ (iprop(tblOwn c fullShare T0c T1c ∗ inAt V c t ∗ owns (c : Thread nD τ) (ms1_8 t) fullShare (step1 V c t (s, y)).2
          ∗ scrOwn c (step1 V c t (s, y)).1) -∗ K ⟨⟩))
      ⊢ wp frame (wpE (defs₀ (F := F)) Variants.none c none) Set.univ (bodyAt1 t) K := by
  unfold inAt bodyAt1
  rw [step1_snd, step1_fst, ← aqW_at t, ← kiW_at t]
  dsimp only
  by_cases hF : firstAt t <;> by_cases hL : lastAt t
  · rw [if_pos hF, if_pos hL]; iintro ⟨HT, Hin, H8, HS, HK⟩
    iapply (sound_kernel1_FL c _ fullShare _ _ _ _ _ _ _ _ _ _ _ _ _ _ _ _ _ _ T0c T1c _ _ _ _ _ _ _ _ ((condF_iff t).mpr hF) ((condL_iff t).mpr hL) K); iframe
    isplitl [H8]; · iexists y; iexact H8
    iexists s; iexact HS
  · rw [if_pos hF, if_neg hL]; iintro ⟨HT, Hin, H8, HS, HK⟩
    iapply (sound_kernel1_Fl c _ fullShare _ _ _ _ _ _ _ _ _ _ _ _ _ _ _ _ _ _ T0c T1c _ _ _ _ _ _ _ _ _ ((condF_iff t).mpr hF) (fun h => hL ((condL_iff t).mp h)) K); iframe; iexists s; iexact HS
  · rw [if_neg hF, if_pos hL]; iintro ⟨HT, Hin, H8, HS, HK⟩
    iapply (sound_kernel1_fL c _ fullShare _ _ _ _ _ _ _ _ _ _ _ _ _ _ _ _ _ _ T0c T1c _ _ _ _ _ _ _ _ _ (fun h => hF ((condF_iff t).mp h)) ((condL_iff t).mpr hL) K); iframe; iexists y; iexact H8
  · rw [if_neg hF, if_neg hL]; iintro ⟨HT, Hin, H8, HS, HK⟩
    iapply (sound_kernel1_fl c _ fullShare _ _ _ _ _ _ _ _ _ _ _ _ _ _ _ _ _ _ T0c T1c _ _ _ _ _ _ _ _ _ _ (fun h => hF ((condF_iff t).mp h)) (fun h => hL ((condL_iff t).mp h)) K); iframe

/-- The body's triple at every point: the tables, the inputs and the rest of the invariant pass through; the carried buffers and the output block move by one step of the trajectory. -/
theorem sound_body1 (c : Dev nD) (t : Fin (cfg1 F).N) :
    iprop(Phi1 V c t.castSucc ∗ (dat1 V c).owesAt () t.castSucc
      ∗ (∃ d, owns (c : Thread nD τ) (ms1_0 t) fullShare ((dat1 V c).before (0 : Fin 9) t d))
      ∗ (∃ d, owns (c : Thread nD τ) (ms1_1 t) fullShare ((dat1 V c).before (1 : Fin 9) t d))
      ∗ (∃ d, owns (c : Thread nD τ) (ms1_2 t) fullShare ((dat1 V c).before (2 : Fin 9) t d))
      ∗ (∃ d, owns (c : Thread nD τ) (ms1_3 t) fullShare ((dat1 V c).before (3 : Fin 9) t d))
      ∗ (∃ d, owns (c : Thread nD τ) (ms1_4 t) fullShare ((dat1 V c).before (4 : Fin 9) t d))
      ∗ (∃ d, owns (c : Thread nD τ) (ms1_5 t) fullShare ((dat1 V c).before (5 : Fin 9) t d))
      ∗ (∃ d, owns (c : Thread nD τ) (ms1_6 t) fullShare ((dat1 V c).before (6 : Fin 9) t d))
      ∗ (∃ d, owns (c : Thread nD τ) (ms1_7 t) fullShare ((dat1 V c).before (7 : Fin 9) t d))
      ∗ (∃ d, owns (c : Thread nD τ) (ms1_8 t) fullShare ((dat1 V c).before (8 : Fin 9) t d)))
      ⊢ wp frame (wpE (defs₀ (F := F)) Variants.none c none) Set.univ (bodyAt1 t) (fun _ =>
        iprop(Phi1 V c t.succ ∗ (dat1 V c).owesAt () t.castSucc
        ∗ owns (c : Thread nD τ) (ms1_0 t) fullShare (iblk1 V c (0 : Fin 9) t)
        ∗ owns (c : Thread nD τ) (ms1_1 t) fullShare (iblk1 V c (1 : Fin 9) t)
        ∗ owns (c : Thread nD τ) (ms1_2 t) fullShare (iblk1 V c (2 : Fin 9) t)
        ∗ owns (c : Thread nD τ) (ms1_3 t) fullShare (iblk1 V c (3 : Fin 9) t)
        ∗ owns (c : Thread nD τ) (ms1_4 t) fullShare (iblk1 V c (4 : Fin 9) t)
        ∗ owns (c : Thread nD τ) (ms1_5 t) fullShare (iblk1 V c (5 : Fin 9) t)
        ∗ owns (c : Thread nD τ) (ms1_6 t) fullShare (iblk1 V c (6 : Fin 9) t)
        ∗ owns (c : Thread nD τ) (ms1_7 t) fullShare (iblk1 V c (7 : Fin 9) t)
        ∗ out8 V c t)) := by
  unfold Phi1
  simp only [before1_0 V c, before1_1 V c, before1_2 V c, before1_3 V c, before1_4 V c, before1_5 V c, before1_6 V c, before1_7 V c, before1_8 V c]
  iintro ⟨⟨⟨%s, %hs, HS⟩, HT, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨e1, e2⟩ := step1_traj V c t s d8 hs
  iapply (kernel_at V c t s d8 _)
  unfold inAt inOwn
  iframe HT H0 H1 H2 H3 H4 H5 H6 H7 H8 HS
  iintro ⟨HT, ⟨H0, H1, H2, H3, H4, H5, H6, H7⟩, H8, HS⟩
  iframe HT HR HP Ho H0 H1 H2 H3 H4 H5 H6 H7
  isplitl [HS]
  · iexists _; isplitr; swap
    · iexact HS
    · ipureintro; intro _; exact e1
  iapply (out8_of V c t _ e2); iexact H8

theorem body_obligation1 (c : Dev nD) : BodyObligation (dat1 (F := F) V c) (defs₀ (F := F)) Variants.none () Set.univ := fun t => by
  rw [bigSep_W1, bigSep_W1]
  exact sound_body1 V c t

theorem prefHeld1_eq (c : Dev nD) (q : PosShare TreeShare) (pf : pre1.Contents (Elt F)) :
    (Pipeline.prefHeld pre1 c (fun _ => q) pf : sProp 𝕄)
      = iprop((((c : Thread nD τ).loc main_c) ↦{q} pf 0) ∗ (((c : Thread nD τ).loc main_c_0) ↦{q} pf 1)) := by
  unfold Pipeline.prefHeld
  exact bigSep_univ_eq_bigSepL [(0 : Fin 2), (1 : Fin 2)] (by decide) (by decide) _

def someBuf (c : Dev nD) (r : Ref sig .tc) : sProp 𝕄 :=
  iprop(∃ f : Buf (Elt F) ((c : Thread nD τ).loc r), ((c : Thread nD τ).loc r) ↦{fullShare} f)
/-- The call's four scratch buffers, each owned at some contents. -/
def scrSome (c : Dev nD) : sProp 𝕄 :=
  iprop(someBuf (F := F) c cc1_scratch0 ∗ someBuf (F := F) c cc1_scratch1 ∗ someBuf (F := F) c cc1_scratch2 ∗ someBuf (F := F) c cc1_scratch3)

theorem scopedRest1_split (c : Dev nD) :
    (Pipeline.scopedRest (Ix := Unit) (Name := ℕ) (U := UR sig nD τ) (Lvl := ℕ) (Val := Elt F) (cfg1 F).spec c : sProp 𝕄)
      = iprop(scrSome (F := F) c ∗ Pipeline.scopedRestBut (Ix := Unit) (Name := ℕ) (U := UR sig nD τ) (Lvl := ℕ) (Val := Elt F) spec1 c scr1) :=
  Pipeline.scopedRest_split_of_list (win := spec1) (c := c) scr1 (by decide) (by decide)

theorem scrOwn_iff (c : Dev nD) : (iprop(∃ s : Scr F, scrOwn c s) : sProp 𝕄) ⊣⊢ scrSome (F := F) c := by
  unfold scrOwn scrSome someBuf
  simp only [owns_whole]
  constructor
  · iintro ⟨%s, H0, H1, H2, H3⟩
    isplitl [H0]; · iexists s.mx; iexact H0
    isplitl [H1]; · iexists s.den; iexact H1
    isplitl [H2]; · iexists s.acc; iexact H2
    iexists s.qry; iexact H3
  · iintro ⟨⟨%f0, H0⟩, ⟨%f1, H1⟩, ⟨%f2, H2⟩, ⟨%f3, H3⟩⟩
    iexists (⟨f0, f1, f2, f3⟩ : Scr F)
    iframe H0 H1 H2 H3

theorem hin1 (c : Dev nD) :
    iprop((∃ r, prngReg c r) ∗ Pipeline.prefHeld pre1 c (fun _ => fullShare) (adm (F := F) 1).1
      ∗ Pipeline.scopedRest (Ix := Unit) (Name := ℕ) (U := UR sig nD τ) (Lvl := ℕ) (Val := Elt F) (cfg1 F).spec c)
      ⊢ ((dat1 V c).Φ 0 : sProp 𝕄) := by
  rw [show ((dat1 V c).Φ 0 : sProp 𝕄) = Phi1 V c 0 from rfl, scopedRest1_split, prefHeld1_eq]
  unfold Phi1 tblOwn
  iintro ⟨HP, ⟨HT0, HT1⟩, HS, HR⟩
  isplitl [HS]
  · ihave HS' := (scrOwn_iff (F := F) c).2 $$ HS
    icases HS' with ⟨%s, HS'⟩
    iexists s; isplitr
    · ipureintro; intro h; exact absurd rfl h
    iexact HS'
  isplitl [HT0 HT1]
  · isplitl [HT0]; · iexact HT0
    iexact HT1
  isplitl [HR]; · iexact HR
  iexact HP

theorem hout1 (c : Dev nD) :
    ((dat1 V c).Φ (Fin.last (cfg1 F).N) : sProp 𝕄)
      ⊢ iprop(((∃ r, prngReg c r) ∗ Pipeline.prefHeld pre1 c (fun _ => fullShare) (adm (F := F) 1).1)
        ∗ Pipeline.ownSems0 (fun k : PEmpty => k.elim) c
        ∗ Pipeline.scopedRest (Ix := Unit) (Name := ℕ) (U := UR sig nD τ) (Lvl := ℕ) (Val := Elt F) (cfg1 F).spec c) := by
  rw [show ((dat1 V c).Φ (Fin.last (cfg1 F).N) : sProp 𝕄) = Phi1 V c (Fin.last (cfg1 F).N) from rfl, Pipeline.ownSems0_none,
    scopedRest1_split, prefHeld1_eq]
  unfold Phi1 tblOwn
  iintro ⟨⟨%s, -, HS⟩, ⟨HT0, HT1⟩, HR, HP⟩
  isplitl [HP HT0 HT1]
  · isplitl [HP]; · iexact HP
    isplitl [HT0]; · iexact HT0
    iexact HT1
  isplitr; · iempintro
  isplitl [HS]
  · iapply (scrOwn_iff (F := F) c).1; iexists s; iexact HS
  iexact HR

end Region
end Cert.KernelIdeal.Hand
end
-- ==== Proof.R2.lean ====
import proofs.«405582_j50302656971267_3_alg».proof.Proof.Gen.KernelIdeal.Launch
import proofs.«405582_j50302656971267_3_alg».proof.Proof.Gen.KernelIdeal.Skeleton
import proofs.«405582_j50302656971267_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x1024 := Rect.unit (s := S512x1024) ![0, 0] S512x1024.size inb_S512x1024_S512x1024_0_0

abbrev r2_w1_0 : Rect S1024x4096 := Rect.unit (s := S1024x4096) ![0, 0] S1024x1024.size inb_S1024x4096_S1024x1024_0_0
abbrev r2_w1_1 : Rect S1024x4096 := Rect.unit (s := S1024x4096) ![0, 1024] S1024x1024.size inb_S1024x4096_S1024x1024_0_1024
abbrev r2_w1_2 : Rect S1024x4096 := Rect.unit (s := S1024x4096) ![0, 2048] S1024x1024.size inb_S1024x4096_S1024x1024_0_2048
abbrev r2_w1_3 : Rect S1024x4096 := Rect.unit (s := S1024x4096) ![0, 3072] S1024x1024.size inb_S1024x4096_S1024x1024_0_3072

abbrev r2_b1_0 : Rect S4096 := Rect.unit (s := S4096) ![0] S1024.size inb_S4096_S1024_0
abbrev r2_b1_1 : Rect S4096 := Rect.unit (s := S4096) ![1024] S1024.size inb_S4096_S1024_1024
abbrev r2_b1_2 : Rect S4096 := Rect.unit (s := S4096) ![2048] S1024.size inb_S4096_S1024_2048
abbrev r2_b1_3 : Rect S4096 := Rect.unit (s := S4096) ![3072] S1024.size inb_S4096_S1024_3072

abbrev r2_w2_0 : Rect S4096x1024 := Rect.unit (s := S4096x1024) ![0, 0] S1024x1024.size inb_S4096x1024_S1024x1024_0_0
abbrev r2_w2_1 : Rect S4096x1024 := Rect.unit (s := S4096x1024) ![1024, 0] S1024x1024.size inb_S4096x1024_S1024x1024_1024_0
abbrev r2_w2_2 : Rect S4096x1024 := Rect.unit (s := S4096x1024) ![2048, 0] S1024x1024.size inb_S4096x1024_S1024x1024_2048_0
abbrev r2_w2_3 : Rect S4096x1024 := Rect.unit (s := S4096x1024) ![3072, 0] S1024x1024.size inb_S4096x1024_S1024x1024_3072_0

abbrev r2_b2 : Rect S1024 := Rect.unit (s := S1024) ![0] S1024.size inb_S1024_S1024_0

def out2_5 (x0 : Vec F S512x1024 .bf16) (x1 : Vec F S1024x4096 .bf16) (x2 : Vec F S4096 .f32) (x3 : Vec F S4096x1024 .bf16) (x4 : Vec F S1024 .f32) : Vec F S512x1024 .f32 :=
  View.canon [⟨r2_x, k2_pay1 (k2_pay2 (View.ld x0 r2_x))
    (k2_pay3 (View.ld x0 r2_x) (View.ld x1 r2_w1_0) (View.ld x2 r2_b1_0) (View.ld x3 r2_w2_0) (View.ld x1 r2_w1_1) (View.ld x2 r2_b1_1) (View.ld x3 r2_w2_1))
    (k2_pay4 (View.ld x0 r2_x) (View.ld x1 r2_w1_2)) (k2_pay5 (View.ld x2 r2_b1_2))
    (View.ld x3 r2_w2_2) (View.ld x1 r2_w1_3) (View.ld x2 r2_b1_3) (View.ld x3 r2_w2_3) (View.ld x4 r2_b2)⟩]

theorem sound_kernel2 (c : Dev nD) (E : Set ℕ) (i : grid2.Coords) (arg1 : Memref sig .tc .vmem S512x1024 .bf16) (harg1 : arg1.IsWhole) (arg2 : Memref sig .tc .vmem S1024x4096 .bf16) (harg2 : arg2.IsWhole) (arg3 : Memref sig .tc .vmem S4096 .f32) (harg3 : arg3.IsWhole) (arg4 : Memref sig .tc .vmem S4096x1024 .bf16) (harg4 : arg4.IsWhole) (arg5 : Memref sig .tc .vmem S1024 .f32) (harg5 : arg5.IsWhole) (arg6 : Memref sig .tc .vmem S512x1024 .f32) (harg6 : arg6.IsWhole)
    (x0 : Vec F S512x1024 .bf16) (x1 : Vec F S1024x4096 .bf16) (x2 : Vec F S4096 .f32) (x3 : Vec F S4096x1024 .bf16) (x4 : Vec F S1024 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out2_5 x0 x1 x2 x3 x4)) -∗ K ⟨⟩))
      ⊢ wp frame (wpE (defs₀ (F := F)) Variants.none c none) E (cc2__ffn_kernel i arg1 harg1 arg2 harg2 arg3 harg3 arg4 harg4 arg5 harg5 arg6 harg6) K := by
  simp only [cc2__ffn_kernel_eq_skeleton]; unfold cc2__ffn_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; swap; isplitl [H1]; swap; isplitl [H2]; swap; isplitl [H3]; swap; isplitl [H4]
  all_goals (iexists _; isplitr; swap; iassumption; ipureintro)
  all_goals first | exact View.read_writes_eq_canon _ _ _ (View.cover_of_tiled _ S512x1024.size (by rfl)) | rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t)
      ∧ ∀ d, (dat2 V c).before 4 t d = iblk2 V c 4 t := by
  refine ⟨?_, ?_, ?_, ?_, ?_⟩ <;> exact Dat.before_in_eq_fetched _ _ rfl (fun _ => rfl) (fun _ _ _ => rfl) (fun _ => rfl) t

theorem body_obligation2 (c : Dev nD) : BodyObligation (dat2 (F := F) V c) (defs₀ (F := F)) Variants.none () Set.univ := fun t => by
  simp only [bigSep_W2, before2 V c t, after2_5]
  show _ ⊢ wp frame _ _ (bodyAt2 t) fun _ => iprop((dat2 V c).Φ t.castSucc ∗ (dat2 V c).owesAt () t.castSucc ∗ owns _ _ _ (iblk2 V c 0 t)
    ∗ owns _ _ _ (iblk2 V c 1 t) ∗ owns _ _ _ (iblk2 V c 2 t) ∗ owns _ _ _ (iblk2 V c 3 t) ∗ owns _ _ _ (iblk2 V c 4 t) ∗ _)
  iintro ⟨HΦ, Ho, ⟨%_, H0⟩, ⟨%_, H1⟩, ⟨%_, H2⟩, ⟨%_, H3⟩, ⟨%_, H4⟩, ⟨%_, H5⟩⟩
  iapply sound_kernel2
  iframe H0 H1 H2 H3 H4
  isplitl [H5]; · iexists _; iexact H5
  iintro H; iframe HΦ Ho; iexact H

end Cert.KernelIdeal.Hand

end
-- ==== Proof.HostVals.lean ====
import proofs.«405582_j50302656971267_3_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Named F]

variable (W : Valuation τ sig (Elt F))

/-- Values of the host-written buffers as functions of the contents `W` their stretch starts from. -/
theorem host0_c : StableHlo.after (hostOps0 (F := F)) W (Proc.devRef .tc main_c)
    = (fun i => lit0 (S2x18.rowMajor i) : (⟨S2x18, .i32⟩ : BufTy).Contents (Elt F)) := by
  after_results
  rfl

theorem host0_c_0 : StableHlo.after (hostOps0 (F := F)) W (Proc.devRef .tc main_c_0)
    = (fun i => lit1 (S2x18.rowMajor i) : (⟨S2x18, .i32⟩ : BufTy).Contents (Elt F)) := by
  after_results
  rfl

theorem host0_v0 : StableHlo.after (hostOps0 (F := F)) W (Proc.devRef .tc main_v0)
    = (truncf .bf16 (W (Proc.devRef .tc main_arg0)) bitsLt_bf16_f32 : (⟨S4096x1024, .bf16⟩ : BufTy).Contents (Elt F)) := by
  after_results

theorem host0_v2 : StableHlo.after (hostOps0 (F := F)) W (Proc.devRef .tc main_v2)
    = (truncf .bf16 (concatenate S1024x2048 1 [⟨S1024x1024, W (Proc.devRef .tc main_arg3)⟩, ⟨S1024x1024, W (Proc.devRef .tc main_arg5)⟩]
        concatenates_S1024x1024_S1024x1024_S1024x2048_d1) bitsLt_bf16_f32 : (⟨S1024x2048, .bf16⟩ : BufTy).Contents (Elt F)) := by
  after_results

theorem host0_v3 : StableHlo.after (hostOps0 (F := F)) W (Proc.devRef .tc main_v3)
    = (concatenate S2048 0 [⟨S1024, W (Proc.devRef .tc main_arg4)⟩, ⟨S1024, W (Proc.devRef .tc main_arg6)⟩]
        concatenates_S1024_S1024_S2048_d0 : (⟨S2048, .f32⟩ : BufTy).Contents (Elt F)) := by
  after_results

theorem host1_v5 : StableHlo.after (hostOps1 (F := F)) W (Proc.devRef .tc main_v5)
    = (truncf .bf16 (W (Proc.devRef .tc main_arg1)) bitsLt_bf16_f32 : (⟨S1024x1024, .bf16⟩ : BufTy).Contents (Elt F)) := by
  after_results

theorem host2_v7 : StableHlo.after (hostOps2 (F := F)) W (Proc.devRef .tc main_v7)
    = (truncf .bf16 (W (Proc.devRef .tc main_arg9)) bitsLt_bf16_f32 : (⟨S1024x4096, .bf16⟩ : BufTy).Contents (Elt F)) := by
  after_results

theorem host2_v8 : StableHlo.after (hostOps2 (F := F)) W (Proc.devRef .tc main_v8)
    = (truncf .bf16 (W (Proc.devRef .tc main_arg11)) bitsLt_bf16_f32 : (⟨S4096x1024, .bf16⟩ : BufTy).Contents (Elt F)) := by
  after_results

end Cert.KernelIdeal.Hand

end
-- ==== Proof.LibRun.lean ====
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.LibRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Val : EltTy → Type} {U : Type} [URA U]

theorem ΦA_in {gr W : Nat} (win : Fin W → Pipeline.WinSpec sig gr) (c : Dev nD) (T : sProp (MT nD τ sig Unit Val ℕ U ℕ)) :
    iprop((∃ r, prngReg c r) ∗ T ∗ Pipeline.scopedRest win c) ⊢ (Pipeline.ΦA win c : sProp (MT nD τ sig Unit Val ℕ U ℕ)) := by
  unfold Pipeline.ΦA; iintro ⟨Hp, -, Hr⟩; isplitl [Hr] <;> iassumption
theorem ΦA_out {gr W : Nat} (win : Fin W → Pipeline.WinSpec sig gr) (c : Dev nD) (T : sProp (MT nD τ sig Unit Val ℕ U ℕ)) (hT : (BI.emp : sProp (MT nD τ sig Unit Val ℕ U ℕ)) = T) :
    (Pipeline.ΦA win c : sProp (MT nD τ sig Unit Val ℕ U ℕ)) ⊢ iprop(((∃ r, prngReg c r) ∗ T) ∗ Pipeline.ownSems0 (fun k : PEmpty => k.elim) c
      ∗ Pipeline.scopedRest win c) := by
  rw [Pipeline.ownSems0_none, ← hT]; unfold Pipeline.ΦA
  iintro ⟨Hr, Hp⟩
  isplitl [Hp]; · isplitl [Hp]; · iexact Hp
                  iempintro
  isplitr; · iempintro
  iexact Hr

variable {Λ₀ : Idealize.SL.Sem.Labels} {cfg : Cfg sig Λ₀} {c : Dev nD} (d : Dat τ Val Unit ℕ U ℕ cfg c)

theorem owes_in (h0 : d.owed 0 = 0) (hr : ∀ x, x ∈ d.recorded 0) :
    (iprop(∃ W, owes (c : Thread nD τ) (0 : CellTallies nD τ sig Unit) W) : sProp (MT nD τ sig Unit Val ℕ U ℕ)) ⊢ d.owesAt () 0 := by
  unfold Pipeline.Dat.owesAt Pipeline.owesWithin
  rw [h0]
  iintro ⟨%W, HO⟩; iexists W; isplitr
  · ipureintro; exact fun _ _ => Or.inl (hr _)
  iexact HO
theorem owes_out (hN : d.owed (Fin.last _) = 0) :
    d.owesAt () (Fin.last _) ⊢ (iprop(∃ W, owes (c : Thread nD τ) (0 : CellTallies nD τ sig Unit) W) : sProp (MT nD τ sig Unit Val ℕ U ℕ)) := by
  unfold Pipeline.Dat.owesAt Pipeline.owesWithin
  rw [hN]
  iintro ⟨%W, -, HO⟩; iexists W; iexact HO

section Region
variable {Λ₀ : Idealize.SL.Sem.Labels} {P : Type} [Fintype P] (pcs : P → Pipeline.PCfg sig Λ₀ Val) (a : (p : P) → (pcs p).Adm)
  (pdats : (p : P) → (c : Dev nD) → Dat τ Val Unit ℕ (UR sig nD τ) ℕ (Pipeline.pin pcs a p) c)
  (defs₀ : Defs nD τ sig Val Λ₀) (𝒱₀ : Variants) (L : GSem nD τ sig → Finset Unit) (lv : GSem nD τ sig → Unit → ℕ)
  (p : P) (lf : Pipeline.PLaunchFacts (nD := nD) (τ := τ) pcs p) (V : Dev nD → Valuation τ sig Val)

abbrev R (c : Dev nD) : sProp (MT nD τ sig Unit Val ℕ (UR sig nD τ) ℕ) :=
  iprop((∃ r, prngReg c r) ∗ ∃ W, owes (c : Thread nD τ) (0 : CellTallies nD τ sig Unit) W)
/-- Region `p`'s tables, held whole at the contents `a p` fixes. -/
abbrev tabs (c : Dev nD) : sProp (MT nD τ sig Unit Val ℕ (UR sig nD τ) ℕ) := Pipeline.prefHeld (pcs p).pre c (fun _ => fullShare) (a p).1
/-- What region `p`, entered from `V`, leaves: its arrays at the proof data's last contents, every other buffer as found. -/
abbrev leaves (c : Dev nD) : Valuation τ sig Val :=
  Pipeline.withArrays (Pipeline.pin pcs a p).spec c (V c) fun w => (pdats p c).arrAt w (Pipeline.pin pcs a p).N

include lf in
theorem leaves_arr (c : Dev nD) (w : Fin (Pipeline.pin pcs a p).W) :
    leaves pcs a pdats p V c (Proc.devRef .tc (Pipeline.arrRef (Pipeline.pin pcs a p).spec w)) = (pdats p c).arrAt w (Pipeline.pin pcs a p).N := by
  unfold leaves; exact Pipeline.withArrays_arr _ lf.win.arr_inj c _ _ w
theorem leaves_of_ne (c : Dev nD) (b : Ref sig .tc) (hb : ∀ w, Pipeline.arrRef (Pipeline.pin pcs a p).spec w ≠ b) :
    leaves pcs a pdats p V c (Proc.devRef .tc b) = V c (Proc.devRef .tc b) := by
  unfold leaves; exact Pipeline.withArrays_of_ne _ c _ _ b hb

include lf in
theorem rest_split (htab : ∀ c, ((fun k => V c ((pcs p).pre.ref k)) : (pcs p).pre.Contents Val) = (a p).1) (c : Dev nD) :
    (Pipeline.unscopedRest (Pipeline.pin pcs a p).spec c (fun b => V c b) : sProp (MT nD τ sig Unit Val ℕ (UR sig nD τ) ℕ))
      = iprop(tabs pcs a p c ∗ Pipeline.unscopedRestP (pcs p).pre (Pipeline.pin pcs a p).spec c (fun b => V c b)) := by
  unfold tabs; rw [← htab c]; exact Pipeline.unscopedRest_split lf.pre c _

def regOf (hpl : ∀ c, (∀ w, (pdats p c).q w = fullShare) ∧ (∀ t, (pdats p c).owed t = 0) ∧ ∀ t x, x ∈ (pdats p c).recorded t)
    (hA : ∀ c w, (pdats p c).A w = V c (Pipeline.arrRef (Pipeline.pin pcs a p).spec w))
    (htab : ∀ c, ((fun k => V c ((pcs p).pre.ref k)) : (pcs p).pre.Contents Val) = (a p).1)
    (hbody : ∀ c, BodyObligation (pdats p c) defs₀ 𝒱₀ () Set.univ)
    (hin : ∀ c, iprop((∃ r, prngReg c r) ∗ tabs pcs a p c ∗ Pipeline.scopedRest (pcs p).spec c) ⊢ (pdats p c).Φ 0)
    (hout : ∀ c, (pdats p c).Φ (Fin.last _) ⊢ iprop(((∃ r, prngReg c r) ∗ tabs pcs a p c) ∗ Pipeline.ownSems0 (fun k : PEmpty => k.elim) c
      ∗ Pipeline.scopedRest (pcs p).spec c)) :
    Pipeline.RegionSeg pcs a pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => (hpl c).2.1
  pre c := iprop(StableHlo.held (c : Thread nD τ) (Pipeline.ucRefs τ sig) (V c) ∗ R c)
  post c := iprop(StableHlo.held (c : Thread nD τ) (Pipeline.ucRefs τ sig) (leaves pcs a pdats p V c) ∗ R c)
  X c := iprop(∃ r, prngReg c r)
  Y c := iprop((∃ r, prngReg c r) ∗ tabs pcs a p c)
  Z c := Pipeline.unscopedRestP (pcs p).pre (Pipeline.pin pcs a p).spec c (fun b => V c b)
  hentry c := by
    rw [Pipeline.ownSems0_none]
    have hs := Pipeline.arrays_of_unscopedBufs (p := p) pcs a pdats lf.win lf.arr_whole c
      ((pdats p c).share_full (hpl c).1) (fun b => V c b) (hA c)
    rw [Pipeline.unscopedBufs_held, rest_split pcs a p lf V htab c] at hs
    iintro ⟨⟨Hub, Hp, HO⟩, -, -⟩
    ihave H := hs $$ Hub
    icases H with ⟨Ha, Hpf, Hrest⟩
    imodintro
    isplitl [Ha]; · iexact Ha
    isplitl [Hpf]; · iexact Hpf
    isplitl [HO]; · iapply owes_in _ ((hpl c).2.1 _) ((hpl c).2.2 _); iexact HO
    isplitl [Hp]; · iexact Hp
    iexact Hrest
  hin := hin
  hout := hout
  hexit c := by
    have hj := Pipeline.unscopedBufs_of_arrays (p := p) pcs a lf.win lf.arr_whole c pdats ((pdats p c).share_full (hpl c).1)
      (fun b => V c b) (fun b => leaves pcs a pdats p V c b) ((pdats p c).arrAt · (Pipeline.pin pcs a p).N)
      (fun w => (leaves_arr pcs a pdats p lf V c w).symm)
      fun b hb => leaves_of_ne pcs a pdats p V c b fun w e => hb (Finset.mem_image.mpr ⟨w, Finset.mem_univ _, e⟩)
    rw [Pipeline.unscopedBufs_held, rest_split pcs a p lf V htab c] at hj
    iintro ⟨Ha, HO, ⟨HY, Hpf⟩, Hrest⟩
    imodintro
    isplitl [Ha Hrest Hpf]
    · iapply hj
      isplitl [Ha]; · iexact Ha
      isplitl [Hpf] <;> iassumption
    isplitl [HY]; · iexact HY
    iapply owes_out _ ((hpl c).2.1 _); iexact HO

abbrev hseg (ops : List (HloOp τ sig Val)) (hsub : ops.Forall fun op => op.bufs ⊆ StableHlo.tcRefs τ sig)
    (hfresh : ops.Forall fun op => op.fresh = ∅) (W : Dev nD → Valuation τ sig Val) :
    Pipeline.HostSeg (Name := ℕ) (U := UR sig nD τ) pcs defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem run_segs [DecidableEq P] [∀ e, Nonempty (Val e)] (phinj : Function.Injective (Pipeline.cellOf (nD := nD) (τ := τ) (Pipeline.pin pcs a)))
    (m : (ℓ : Loc nD τ sig) → Buf Val ℓ) (ρ : Dev nD → PrngReg)
    (main : Dev nD → Prog (TpuEff nD τ sig Val (Pipeline.Sig Λ₀ P fun p => (pcs p).Adm) .tc) PUnit)
    (segs : List (Pipeline.Seg pcs a pdats () defs₀ 𝒱₀ L lv)) (hmain : ∀ c, main c = Pipeline.Seg.run segs)
    (hnd : (Pipeline.Seg.pipes segs).Nodup) (hL : ∀ g : GSem nD τ sig, g.1.2 ≠ .tc → L g = ∅) (Wn : Dev nD → Valuation τ sig Val)
    (hch : Pipeline.Seg.Chains (fun c => iprop(StableHlo.held (c : Thread nD τ) (Pipeline.ucRefs τ sig) (fun b => m ((c : Dev nD), b)) ∗ R c)) segs
      fun c => iprop((StableHlo.held (c : Thread nD τ) (Pipeline.ucRefs τ sig) (Wn c) ∗ ∃ r, prngReg c r)
        ∗ ∃ W, owes (c : Thread nD τ) (0 : CellTallies nD τ sig Unit) W)) :
    θ_run (Pipeline.defs pcs defs₀) (onTc (τ := τ) main) ⟨m, fun _ => 0, ρ⟩ (fun r => ∀ c : Dev nD,
      ∀ b ∈ Pipeline.ucRefs τ sig, r.2.mem ((c : Thread nD τ).1, b) = Wn c b) :=
  let u := initOf (Pipeline.cells (Pipeline.pin pcs a) phinj) (Pipeline.launchToks (Pipeline.pin pcs a) phinj)
  Pipeline.θ_run_regions_kit pcs a pdats () phinj emb₁ defs₀ 𝒱₀ L lv m ρ main segs
    (fun c Q => by rw [hmain c])
    hnd (O₀ := 0) (hL := hL) (G := fun _ => iprop(emp))
    (u₀ := u)
    (hu₀ := by
      iintro Hu; imodintro
      isplitl [Hu]
      · iapply (show (ownU u : sProp (MT nD τ sig Unit Val ℕ (UR sig nD τ) ℕ)) ⊢ BI.own (emb₁ u) from .rfl)
        iexact Hu
      iapply (show (BI.emp : sProp (MT nD τ sig Unit Val ℕ (UR sig nD τ) ℕ)) ⊢ bigSep Finset.univ (fun _ : Dev nD => (BI.emp : sProp (MT nD τ sig Unit Val ℕ (UR sig nD τ) ℕ))) from by rw [BI.bigSep_emp_const])
      iempintro)
    (T₀ := fun c => iprop(StableHlo.held (c : Thread nD τ) (Pipeline.ucRefs τ sig) (fun b => m ((c : Dev nD), b)) ∗ R c))
    (Tₙ := fun c => iprop(StableHlo.held (c : Thread nD τ) (Pipeline.ucRefs τ sig) (Wn c) ∗ ∃ r, prngReg c r))
    (hch := hch)
    (hinit := by
      refine Pipeline.initEach L lv fun c => ?_
      rw [show unscopedBufs c (fun b => m ((c : Thread nD τ).loc b)) = StableHlo.held (c : Thread nD τ) (Pipeline.ucRefs τ sig) (fun b => m ((c : Dev nD), b))
        from Pipeline.unscopedBufs_held c (fun b => m ((c : Dev nD), b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun s h c => h c)

end Region

end Cert.LibRun

end
-- ==== Proof.Run.lean ====
import proofs.«405582_j50302656971267_3_alg».proof.Proof.R0
import proofs.«405582_j50302656971267_3_alg».proof.Proof.R1Dat
import proofs.«405582_j50302656971267_3_alg».proof.Proof.R2
import proofs.«405582_j50302656971267_3_alg».proof.Proof.HostVals
import proofs.«405582_j50302656971267_3_alg».proof.Proof.Gen.KernelIdeal.Regions
import proofs.«405582_j50302656971267_3_alg».proof.Proof.LibRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen Cert.LibRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Proof data of pipeline `p` when its region is entered from `V`. -/
def datOf : (p : Fin 3) → (V : (c : Dev nD) → (b : Ref sig .tc) → Buf (Elt F) ((c : Thread nD τ).loc b)) → (c : Dev nD) →
    Dat τ (Elt F) Unit ℕ (UR sig nD τ) ℕ (Pipeline.pin (pcfgs (F := F)) adm p) c
  | ⟨0, _⟩ => dat0
  | ⟨1, _⟩ => dat1
  | ⟨2, _⟩ => dat2
theorem datOf_A : ∀ (p : Fin 3) V (c : Dev nD) w, (datOf (F := F) p V c).A w = V c (Pipeline.arrRef (Pipeline.pin (pcfgs (F := F)) adm p).spec w)
  | ⟨0, _⟩ => A_eq0
  | ⟨1, _⟩ => A_eq1
  | ⟨2, _⟩ => A_eq2
/-- What region `p`, entered from `V`, leaves: its arrays at the proof data's last contents, every other buffer as found. -/
def Wreg (p : Fin 3) (V : Dev nD → Valuation τ sig (Elt F)) (c : Dev nD) : Valuation τ sig (Elt F) :=
  Pipeline.withArrays (Pipeline.pin (pcfgs (F := F)) adm p).spec c (V c) fun w => (datOf p (fun c b => V c b) c).arrAt w (Pipeline.pin (pcfgs (F := F)) adm p).N

section Leaves
variable (p : Fin 3) (lf : Pipeline.PLaunchFacts (nD := nD) (τ := τ) (pcfgs (F := F)) p) (V : Dev nD → Valuation τ sig (Elt F)) (c : Dev nD)
include lf in
theorem Wreg_arr (w : Fin (Pipeline.pin (pcfgs (F := F)) adm p).W) :
    Wreg p V c (Proc.devRef .tc (Pipeline.arrRef (Pipeline.pin (pcfgs (F := F)) adm p).spec w)) = (datOf p (fun c b => V c b) c).arrAt w (Pipeline.pin (pcfgs (F := F)) adm p).N := by
  unfold Wreg; exact Pipeline.withArrays_arr _ lf.win.arr_inj c _ _ w
theorem Wreg_of_ne (b : Ref sig .tc) (hb : ∀ w, Pipeline.arrRef (Pipeline.pin (pcfgs (F := F)) adm p).spec w ≠ b) :
    Wreg p V c (Proc.devRef .tc b) = V c (Proc.devRef .tc b) := by
  unfold Wreg; exact Pipeline.withArrays_of_ne _ c _ _ b hb
include lf in
/-- A region changes only its output windows' arrays: an input window's array, like any other buffer, is left as found. -/
theorem Wreg_keep (r : Ref sig .tc) (h : ∀ w, Pipeline.arrRef (Pipeline.pin (pcfgs (F := F)) adm p).spec w = r → ((Pipeline.pin (pcfgs (F := F)) adm p).win w).isOut = false) :
    Wreg p V c (Proc.devRef .tc r) = V c (Proc.devRef .tc r) := by
  by_cases hex : ∃ w, Pipeline.arrRef (Pipeline.pin (pcfgs (F := F)) adm p).spec w = r
  · obtain ⟨w, rfl⟩ := hex
    exact (Wreg_arr p lf V c w).trans (((datOf p _ c).arrAt_in w (h w rfl) _).trans (datOf_A p _ c w))
  · exact Wreg_of_ne p V c r fun w e => hex ⟨w, e⟩
end Leaves

abbrev W0 (m : (ℓ : Loc nD τ sig) → Buf (Elt F) ℓ) (_ρ : Dev nD → PrngReg) : Dev nD → Valuation τ sig (Elt F) :=
  fun c b => m ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays (cfg1 F).spec c (W3 m ρ c) fun w => (dat1 (V3 m ρ) c).arrAt w (cfg1 F).N
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- A buffer that no host operation so far writes and that is no earlier region's output still holds its launch contents. -/
theorem W2_launch (c : Dev nD) (r : Ref sig .tc) (h0 : r ∉ hostOps0_W)
    (k0 : ∀ w, Pipeline.arrRef spec0 w = r → (cfg0.win w).isOut = false) :
    W2 m ρ c (Proc.devRef .tc r) = m ((c : Thread nD τ).loc r) :=
  (Wreg_keep 0 launch0 (W1 m ρ) c r k0).trans (StableHlo.after_of_writes_sub hostOps0 _ hostOps0_writes h0)
theorem W3_launch (c : Dev nD) (r : Ref sig .tc) (h0 : r ∉ hostOps0_W) (h1 : r ∉ hostOps1_W)
    (k0 : ∀ w, Pipeline.arrRef spec0 w = r → (cfg0.win w).isOut = false) :
    W3 m ρ c (Proc.devRef .tc r) = m ((c : Thread nD τ).loc r) :=
  (W3_of m ρ c r h1).trans (W2_launch m ρ c r h0 k0)
theorem W4_launch (c : Dev nD) (r : Ref sig .tc) (h0 : r ∉ hostOps0_W) (h1 : r ∉ hostOps1_W)
    (k0 : ∀ w, Pipeline.arrRef spec0 w = r → (cfg0.win w).isOut = false)
    (k1 : ∀ w : Fin 9, Pipeline.arrRef spec1 w = r → (spec1 w).isOut = false) :
    W4 m ρ c (Proc.devRef .tc r) = m ((c : Thread nD τ).loc r) :=
  (Wreg_keep 1 launch1 (W3 m ρ) c r k1).trans (W3_launch m ρ c r h0 h1 k0)
theorem W5_launch (c : Dev nD) (r : Ref sig .tc) (h0 : r ∉ hostOps0_W) (h1 : r ∉ hostOps1_W) (h2 : r ∉ hostOps2_W)
    (k0 : ∀ w, Pipeline.arrRef spec0 w = r → (cfg0.win w).isOut = false)
    (k1 : ∀ w : Fin 9, Pipeline.arrRef spec1 w = r → (spec1 w).isOut = false) :
    W5 m ρ c (Proc.devRef .tc r) = m ((c : Thread nD τ).loc r) :=
  (W5_of m ρ c r h2).trans (W4_launch m ρ c r h0 h1 k0 k1)
theorem W6_launch (c : Dev nD) (r : Ref sig .tc) (h0 : r ∉ hostOps0_W) (h1 : r ∉ hostOps1_W) (h2 : r ∉ hostOps2_W)
    (k0 : ∀ w, Pipeline.arrRef spec0 w = r → (cfg0.win w).isOut = false)
    (k1 : ∀ w : Fin 9, Pipeline.arrRef spec1 w = r → (spec1 w).isOut = false)
    (k2 : ∀ w, Pipeline.arrRef spec2 w = r → (cfg2.win w).isOut = false) :
    W6 m ρ c (Proc.devRef .tc r) = m ((c : Thread nD τ).loc r) :=
  (Wreg_keep 2 launch2 (W5 m ρ) c r k2).trans (W5_launch m ρ c r h0 h1 h2 k0 k1)
theorem W3_eq_W1 (c : Dev nD) (r : Ref sig .tc) (h1 : r ∉ hostOps1_W)
    (k0 : ∀ w, Pipeline.arrRef spec0 w = r → (cfg0.win w).isOut = false) :
    W3 m ρ c (Proc.devRef .tc r) = W1 m ρ c (Proc.devRef .tc r) :=
  (W3_of m ρ c r h1).trans (Wreg_keep 0 launch0 (W1 m ρ) c r k0)

theorem W6_main_v9 (c : Dev nD) : W6 m ρ c (Proc.devRef .tc main_v9) = (dat2 (V5 m ρ) c).arrAt 5 cfg2.N :=
  Wreg_arr 2 launch2 (W5 m ρ) c 5
theorem V5_main_v6 (c : Dev nD) : V5 m ρ c main_v6 = (dat1 (V3 m ρ) c).arrAt 8 (cfg1 F).N :=
  (W5_of m ρ c main_v6 (by decide)).trans (Wreg_arr 1 launch1 (W3 m ρ) c 8)
theorem V3_main_v4_0 (c : Dev nD) : V3 m ρ c main_v4_0 = (dat0 (V1 m ρ) c).arrAt 3 cfg0.N :=
  (W3_of m ρ c main_v4_0 (by decide)).trans (Wreg_arr 0 launch0 (W1 m ρ) c 3)
theorem V3_main_v4_1 (c : Dev nD) : V3 m ρ c main_v4_1 = (dat0 (V1 m ρ) c).arrAt 4 cfg0.N :=
  (W3_of m ρ c main_v4_1 (by decide)).trans (Wreg_arr 0 launch0 (W1 m ρ) c 4)

/-- The contents each region is entered from. -/
def entry : Fin 3 → Dev nD → Valuation τ sig (Elt F)
  | ⟨0, _⟩ => W1 m ρ
  | ⟨1, _⟩ => W3 m ρ
  | ⟨2, _⟩ => W5 m ρ
abbrev pdats (p : Fin 3) (c : Dev nD) : Dat τ (Elt F) Unit ℕ (UR sig nD τ) ℕ (Pipeline.pin (pcfgs (F := F)) adm p) c :=
  datOf p (fun c b => entry m ρ p c b) c
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem pdats_plain : ∀ (p : Fin 3) (c : Dev nD), (∀ w, (pdats m ρ p c).q w = fullShare) ∧ (∀ t, (pdats m ρ p c).owed t = 0)
      ∧ ∀ t x, x ∈ (pdats m ρ p c).recorded t
  | ⟨0, _⟩, _ | ⟨1, _⟩, _ | ⟨2, _⟩, _ => ⟨fun _ => rfl, fun _ => rfl, fun _ _ => trivial⟩
/-- Region `p` of this program as an item: the general construction at this program's pipelines and proof data. -/
abbrev reg (p : Fin 3) (lf : Pipeline.PLaunchFacts (nD := nD) (τ := τ) (pcfgs (F := F)) p) :=
  regOf pcfgs adm (pdats m ρ) defs₀ 𝒱₀ L lv p lf (entry m ρ p) (pdats_plain m ρ p) (fun c => datOf_A p _ c)
abbrev reg0 := reg m ρ 0 launch0 (fun _ => funext fun k => k.elim0) (body_obligation0 (V1 m ρ))
  (fun c => ΦA_in spec0 c _)
  (fun c => ΦA_out spec0 c _ (by unfold tabs Pipeline.prefHeld; rw [show (Finset.univ : Finset (Fin 0)) = ∅ from rfl, BI.bigSep_empty]))
abbrev reg2 := reg m ρ 2 launch2 (fun _ => funext fun k => k.elim0) (body_obligation2 (V5 m ρ))
  (fun c => ΦA_in spec2 c _)
  (fun c => ΦA_out spec2 c _ (by unfold tabs Pipeline.prefHeld; rw [show (Finset.univ : Finset (Fin 0)) = ∅ from rfl, BI.bigSep_empty]))

/-- Region 1's two tables are constants of the first host stretch, untouched since. -/
theorem tables_V3 (c : Dev nD) :
    ((fun k => V3 m ρ c (pre1.ref k)) : pre1.Contents (Elt F)) = (adm (F := F) 1).1 := by
  funext k
  match k with
  | ⟨0, _⟩ =>
    exact ((W3_eq_W1 m ρ c main_c (by decide) (by decide)).trans (host0_c _)).trans (adm_tab0 (F := F)).symm
  | ⟨1, _⟩ =>
    exact ((W3_eq_W1 m ρ c main_c_0 (by decide) (by decide)).trans (host0_c_0 _)).trans (adm_tab1 (F := F)).symm
abbrev reg1 := reg m ρ 1 launch1 (tables_V3 m ρ) (body_obligation1 (V3 m ρ)) (hin1 (V3 m ρ)) (hout1 (V3 m ρ))

abbrev segs : List (Pipeline.Seg (pcfgs (F := F)) adm (pdats m ρ) () defs₀ 𝒱₀ L lv) :=
  [ .host (hseg pcfgs defs₀ 𝒱₀ L lv hostOps0 hostOps0_sub hostOps0_fresh (W0 m ρ)),
    .region (reg0 m ρ),
    .host (hseg pcfgs defs₀ 𝒱₀ L lv hostOps1 hostOps1_sub hostOps1_fresh (W2 m ρ)),
    .region (reg1 m ρ),
    .host (hseg pcfgs defs₀ 𝒱₀ L lv hostOps2 hostOps2_sub hostOps2_fresh (W4 m ρ)),
    .region (reg2 m ρ) ]
theorem main_run (c : Dev nD) : main (F := F) c = Pipeline.Seg.run (segs m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  run_segs pcfgs adm (pdats m ρ) defs₀ 𝒱₀ L lv (cellOf_inj adm) m ρ main (segs m ρ) (main_run m ρ)
    (by simp only [segs, Pipeline.Seg.pipes_host, Pipeline.Seg.pipes_region, Pipeline.Seg.pipes_nil]; decide) (fun _ _ => rfl) (W6 m ρ)
    ⟨fun _ => .rfl, fun _ => .rfl, fun _ => .rfl, fun _ => .rfl, fun _ => .rfl, fun _ => .rfl, fun _ => sep_assoc'⟩

end Cert.KernelIdeal.Hand

end
-- ==== Proof.Frame.lean ====
import proofs.«405582_j50302656971267_3_alg».proof.Proof.Run

noncomputable section

namespace Cert.KernelIdeal.Hand

open Cert.KernelIdeal Cert.KernelIdeal.Gen
open Idealize.ShloMosaic Idealize.ShloMosaic.TcCoe Idealize.SL.Sem

variable {F : FTy → Type} [FloatOps F] [Named F]

variable (m : (ℓ : Loc nD τ sig) → Buf (Elt F) ℓ) (ρ : Dev nD → PrngReg)

/-- In the memory `s` each of the thirteen argument arrays holds what it held in `m`. -/
abbrev ArgsKept (m s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)

/-- The result array ends at what the last region leaves; every argument, which no host operation writes and no region gives out, as launched. -/
theorem run_res : θ_run defs (onTc (τ := τ) (main (F := F))) ⟨m, fun _ => 0, ρ⟩ (fun r => ∀ c : Dev nD,
      r.2.mem ((c.tc : Thread nD τ).loc main_v9) = W6 m ρ c (Proc.devRef .tc main_v9) ∧ ArgsKept m r.2.mem c) :=
  (θ_run defs _ _).mono (fun r h c => by
    refine ⟨h c _ (mem_uc main_v9 (by decide)), ?_⟩
    split_ands <;> exact (h c _ (mem_uc _ (by decide))).trans
      (W6_launch m ρ c _ (by decide) (by decide) (by decide) (by decide) (by decide) (by decide)))
    (run_all m ρ)

theorem frame : θ_run defs (onTc (τ := τ) (main (F := F))) ⟨m, fun _ => 0, ρ⟩ (fun r => ∀ c : Dev nD, ArgsKept m r.2.mem c) :=
  (θ_run defs _ _).mono (fun _ h c => (h c).2) (run_res m ρ)

end Cert.KernelIdeal.Hand

end
-- ==== Proof.B.R0.lean ====
import proofs.«405582_j50302656971267_3_alg».proof.Proof.Gen.Kernel.Launch
import proofs.«405582_j50302656971267_3_alg».proof.Proof.Gen.Kernel.Skeleton
import proofs.«405582_j50302656971267_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x1024 := Rect.unit (s := S512x1024) ![0, 0] S512x1024.size inb_S512x1024_S512x1024_0_0
abbrev r0_w : Rect S1024x2048 := Rect.unit (s := S1024x2048) ![0, 0] S1024x2048.size inb_S1024x2048_S1024x2048_0_0
abbrev r0_b : Rect S2048 := Rect.unit (s := S2048) ![0] S2048.size inb_S2048_S2048_0

def out0_3 (x0 : Vec F S512x1024 .bf16) (x1 : Vec F S1024x2048 .bf16) (x2 : Vec F S2048 .f32) : Vec F S512x1024 .bf16 :=
  View.canon [⟨r0_x, k0_pay2 (View.ld x0 r0_x) (View.ld x1 r0_w) (View.ld x2 r0_b)⟩]

def out0_4 (x0 : Vec F S512x1024 .bf16) (x1 : Vec F S1024x2048 .bf16) (x2 : Vec F S2048 .f32) : Vec F S512x1024 .bf16 :=
  View.canon [⟨r0_x, k0_pay3 (View.ld x0 r0_x) (View.ld x1 r0_w) (View.ld x2 r0_b)⟩]

theorem sound_kernel0 (c : Dev nD) (E : Set ℕ) (i : grid0.Coords)
    (arg0 : Memref sig .tc .vmem S512x1024 .bf16) (harg0 : arg0.IsWhole)
    (arg1 : Memref sig .tc .vmem S1024x2048 .bf16) (harg1 : arg1.IsWhole)
    (arg2 : Memref sig .tc .vmem S2048 .f32) (harg2 : arg2.IsWhole)
    (arg3 : Memref sig .tc .vmem S512x1024 .bf16) (harg3 : arg3.IsWhole)
    (arg4 : Memref sig .tc .vmem S512x1024 .bf16) (harg4 : arg4.IsWhole)
    (x0 : Vec F S512x1024 .bf16) (x1 : Vec F S1024x2048 .bf16) (x2 : Vec F S2048 .f32) (K : PUnit → sProp 𝕄) :
    iprop(owns c arg0 fullShare x0 ∗ owns c arg1 fullShare x1 ∗ owns c arg2 fullShare x2
        ∗ (∃ d, owns c arg3 fullShare d) ∗ (∃ d, owns c arg4 fullShare d)
        ∗ (iprop(owns c arg0 fullShare x0 ∗ owns c arg1 fullShare x1 ∗ owns c arg2 fullShare x2
            ∗ owns c arg3 fullShare (out0_3 x0 x1 x2) ∗ owns c arg4 fullShare (out0_4 x0 x1 x2)) -∗ K ⟨⟩))
      ⊢ wp frame (wpE (defs₀ (F := F)) Variants.none c none) E (cc0__kv_kernel i arg0 harg0 arg1 harg1 arg2 harg2 arg3 harg3 arg4 harg4) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]; swap; isplitl [H1]; swap; isplitl [H2]; swap; isplitl [H3]
  all_goals (iexists _; isplitr; swap; iassumption; ipureintro)
  all_goals first | exact View.read_writes_eq_canon _ _ _ (View.cover_of_tiled _ S512x1024.size (by rfl)) | rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

theorem before0 (c : Dev nD) (t : Fin cfg0.N) :
    (∀ d, (dat0 V c).before 0 t d = iblk0 V c 0 t) ∧ (∀ d, (dat0 V c).before 1 t d = iblk0 V c 1 t)
      ∧ ∀ d, (dat0 V c).before 2 t d = iblk0 V c 2 t := by
  refine ⟨?_, ?_, ?_⟩ <;> exact Dat.before_in_eq_fetched _ _ rfl (fun _ => rfl) (fun _ _ _ => rfl) (fun _ => rfl) t

theorem body_obligation0 (c : Dev nD) : BodyObligation (dat0 (F := F) V c) (defs₀ (F := F)) Variants.none () Set.univ := fun t => by
  simp only [bigSep_W0, before0 V c t, after0_3, after0_4]
  show _ ⊢ wp frame _ _ (bodyAt0 t) fun _ => iprop((dat0 V c).Φ t.castSucc ∗ (dat0 V c).owesAt () t.castSucc ∗ owns _ _ _ (iblk0 V c 0 t)
    ∗ owns _ _ _ (iblk0 V c 1 t) ∗ owns _ _ _ (iblk0 V c 2 t) ∗ _)
  iintro ⟨HΦ, Ho, ⟨%_, H0⟩, ⟨%_, H1⟩, ⟨%_, H2⟩, ⟨%_, H3⟩, ⟨%_, H4⟩⟩
  iapply sound_kernel0
  iframe H0 H1 H2
  isplitl [H3]; · iexists _; iexact H3
  isplitl [H4]; · iexists _; iexact H4
  iintro H; iframe HΦ Ho; iexact H

end Cert.Kernel.Hand

end
-- ==== Proof.B.Steps.lean ====
import proofs.«405582_j50302656971267_3_alg».proof.Proof.Gen.Kernel.Skeleton

noncomputable section

namespace Cert.Kernel.Hand

open Cert.Kernel Cert.Kernel.Gen Idealize.ShloMosaic Idealize.ShloMosaic.TcCoe

variable {F : FTy → Type} [FloatOps F]

/-- The state carried across grid points: running row maximum, denominator, weighted sum, projected queries. -/
structure Scr (F : FTy → Type) [FloatOps F] where
  mx : Vec F S512x1 .f32
  den : Vec F S512x1 .f32
  acc : Vec F S512x1024 .f32
  qry : Vec F S512x1024 .bf16

def reset (e : Vec F S512x1024 .bf16) (wq : Vec F S1024x1024 .bf16) (bq : Vec F S1024 .f32) : Scr F :=
  ⟨k1_pay5, k1_pay6, k1_pay7, k1_pay8 e wq bq⟩

/-- The carried state after one more key/value tile. -/
def step (aq ki : Elt F .i32) (s : Scr F) (kb vb : Vec F S512x1024 .bf16) : Scr F :=
  ⟨k1_pay3 (k1_pay10 aq ki s.qry kb s.mx),
   k1_pay1 (k1_pay12 aq ki s.qry kb s.mx) (k1_pay13 aq ki s.qry kb s.mx s.mx s.den),
   k1_pay2 (k1_pay11 aq ki s.qry kb s.mx s.mx) (k1_pay12 aq ki s.qry kb s.mx) s.acc vb,
   s.qry⟩

def epilogue (s : Scr F) (e32 : Vec F S512x1024 .f32) (g b : Vec F S1024 .f32) : Vec F S512x1024 .bf16 :=
  k1_pay4 s.den s.acc e32 g b

end Cert.Kernel.Hand

end
-- ==== Proof.B.R1Body.lean ====
import proofs.«405582_j50302656971267_3_alg».proof.Proof.B.Steps
import proofs.«405582_j50302656971267_3_alg».proof.Proof.Gen.Kernel.Launch
import proofs.«405582_j50302656971267_3_alg».proof.Proof.LibWhole
import Idealize.ShloMosaic.Lib.Ring
import Mathlib.Tactic.FinCases

set_option Elab.async false

noncomputable section

namespace Cert.Kernel.Hand

open Cert.Kernel Cert.Kernel.Gen Cert.LibWhole
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev tbM1_0 : Memref sig .tc .smem S2x18 .i32 := Memref.whole main_c
abbrev tbM1_1 : Memref sig .tc .smem S2x18 .i32 := Memref.whole main_c_0
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev scM1_3 : Memref sig .tc .vmem S512x1024 .bf16 := Memref.whole cc1_scratch3

def aqW (T0 : S2x18.Idx → Elt F .i32) (i : grid1.Coords) : Elt F .i32 :=
  View.readAt (Elt F) tbM1_0.view (Rect.unit (s := S2x18) (k1_off1 i) S1x1.size (k1_off1_inb i)).toLoadRect T0
    (Shape.Idx.first (numel1_S1x1.symm ▸ Nat.one_pos))

def kiW (T1 : S2x18.Idx → Elt F .i32) (i : grid1.Coords) : Elt F .i32 :=
  View.readAt (Elt F) tbM1_1.view (Rect.unit (s := S2x18) (k1_off1 i) S1x1.size (k1_off1_inb i)).toLoadRect T1
    (Shape.Idx.first (numel1_S1x1.symm ▸ Nat.one_pos))

def scrOwn (c : Dev nD) (s : Scr F) : sProp 𝕄 :=
  iprop(owns (c : Thread nD τ) scM1_0 fullShare s.mx
    ∗ owns (c : Thread nD τ) scM1_1 fullShare s.den
    ∗ owns (c : Thread nD τ) scM1_2 fullShare s.acc
    ∗ owns (c : Thread nD τ) scM1_3 fullShare s.qry)

def tblOwn (c : Dev nD) (q : PosShare TreeShare) (T0 T1 : S2x18.Idx → Elt F .i32) : sProp 𝕄 :=
  iprop((tbM1_0.view.loc (c : Thread nD τ) ↦{q} T0) ∗ (tbM1_1.view.loc (c : Thread nD τ) ↦{q} T1))

def inOwn (c : Dev nD) (arg4 : Memref sig .tc .vmem S512x1024 .bf16) (arg5 : Memref sig .tc .vmem S1024x1024 .bf16) (arg6 : Memref sig .tc .vmem S1024 .f32) (arg7 : Memref sig .tc .vmem S512x1024 .bf16) (arg8 : Memref sig .tc .vmem S512x1024 .bf16) (arg9 : Memref sig .tc .vmem S512x1024 .f32) (arg10 : Memref sig .tc .vmem S1024 .f32) (arg11 : Memref sig .tc .vmem S1024 .f32)
    (x4 : Vec F S512x1024 .bf16) (x5 : Vec F S1024x1024 .bf16) (x6 : Vec F S1024 .f32) (x7 : Vec F S512x1024 .bf16) (x8 : Vec F S512x1024 .bf16) (x9 : Vec F S512x1024 .f32) (x10 : Vec F S1024 .f32) (x11 : Vec F S1024 .f32) : sProp 𝕄 :=
  iprop(owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11)

variable (c : Dev nD) (i : grid1.Coords) (q : PosShare TreeShare)
    (arg4 : Memref sig .tc .vmem S512x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S512x1024 .bf16) (harg12 : arg12.IsWhole)
    (T0 T1 : S2x18.Idx → Elt F .i32) (x4 : Vec F S512x1024 .bf16) (x5 : Vec F S1024x1024 .bf16) (x6 : Vec F S1024 .f32) (x7 : Vec F S512x1024 .bf16) (x8 : Vec F S512x1024 .bf16) (x9 : Vec F S512x1024 .f32) (x10 : Vec F S1024 .f32) (x11 : Vec F S1024 .f32)

/-- The only key tile of its query tile: reset, fold, then the finished rows. -/
theorem sound_kernel1_FL
    (hF : (Scalar.cmpi .ne (Scalar.extui (Scalar.cmpi .eq (kiW T1 i) 0#32)) 0#32 = 1#1)) (hL : (k1_cond2 (aqW T0 i) (kiW T1 i) = 1#1)) (K : PUnit → sProp 𝕄) :
    iprop(tblOwn c q T0 T1
      ∗ inOwn c arg4 arg5 arg6 arg7 arg8 arg9 arg10 arg11 x4 x5 x6 x7 x8 x9 x10 x11
      ∗ (∃ d, owns (c : Thread nD τ) arg12 fullShare d)
      ∗ (∃ s : Scr F, scrOwn c s)
      ∗ (iprop(tblOwn c q T0 T1
          ∗ inOwn c arg4 arg5 arg6 arg7 arg8 arg9 arg10 arg11 x4 x5 x6 x7 x8 x9 x10 x11
          ∗ owns (c : Thread nD τ) arg12 fullShare (epilogue (step (aqW T0 i) (kiW T1 i) (reset x4 x5 x6) x7 x8) x9 x10 x11)
          ∗ scrOwn c (step (aqW T0 i) (kiW T1 i) (reset x4 x5 x6) x7 x8)) -∗ K ⟨⟩))
      ⊢ wp frame (wpE (defs₀ (F := F)) Variants.none c none) Set.univ
          (cc1__flash_ln_kernel i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _) scM1_2 (Memref.isWhole_whole _) scM1_3 (Memref.isWhole_whole _)) K := by
  simp -proj (disch := first | assumption | exact Memref.isWhole_whole _) only [tblOwn, inOwn, scrOwn, owns_eq_unread]
  rw [cc1__flash_ln_kernel_eq_skeleton, cc1__flash_ln_kernel_skel, k1_part1_eq_skeleton, k1_part1_skel]
  iintro ⟨⟨HT0, HT1⟩, ⟨H4, H5, H6, H7, H8, H9, H10, H11⟩, ⟨%d, H12⟩, ⟨%s, HS0, HS1, HS2, HS3⟩, Hk⟩
  sl_exec! (disch := first | exact hF | exact hL)
  sl_step
  sl_unfold_run_names
  simp -proj (disch := first | exact hz2 | exact hz1) only [View.readCov_cons_toLoadRect, readAt_unread_whole]
  iapply Hk
  iframe
  isplitl [H12]; · iapply pt_stored c arg12 hz2; iexact H12
  isplitl [HS0]; · iapply pt_stored c scM1_0 hz2; iexact HS0
  isplitl [HS1]; · iapply pt_stored c scM1_1 hz2; iexact HS1
  isplitl [HS2]; · iapply pt_stored c scM1_2 hz2; iexact HS2
  iapply pt_stored c scM1_3 hz2; iexact HS3

/-- The first of several key tiles: reset and fold; the output block is left as it was. -/
theorem sound_kernel1_Fl (y : Vec F S512x1024 .bf16)
    (hF : (Scalar.cmpi .ne (Scalar.extui (Scalar.cmpi .eq (kiW T1 i) 0#32)) 0#32 = 1#1)) (hL : ¬(k1_cond2 (aqW T0 i) (kiW T1 i) = 1#1)) (K : PUnit → sProp 𝕄) :
    iprop(tblOwn c q T0 T1
      ∗ inOwn c arg4 arg5 arg6 arg7 arg8 arg9 arg10 arg11 x4 x5 x6 x7 x8 x9 x10 x11
      ∗ owns (c : Thread nD τ) arg12 fullShare y
      ∗ (∃ s : Scr F, scrOwn c s)
      ∗ (iprop(tblOwn c q T0 T1
          ∗ inOwn c arg4 arg5 arg6 arg7 arg8 arg9 arg10 arg11 x4 x5 x6 x7 x8 x9 x10 x11
          ∗ owns (c : Thread nD τ) arg12 fullShare y
          ∗ scrOwn c (step (aqW T0 i) (kiW T1 i) (reset x4 x5 x6) x7 x8)) -∗ K ⟨⟩))
      ⊢ wp frame (wpE (defs₀ (F := F)) Variants.none c none) Set.univ
          (cc1__flash_ln_kernel i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _) scM1_2 (Memref.isWhole_whole _) scM1_3 (Memref.isWhole_whole _)) K := by
  simp -proj (disch := first | assumption | exact Memref.isWhole_whole _) only [tblOwn, inOwn, scrOwn, owns_eq_unread]
  rw [cc1__flash_ln_kernel_eq_skeleton, cc1__flash_ln_kernel_skel, k1_part1_eq_skeleton, k1_part1_skel]
  iintro ⟨⟨HT0, HT1⟩, ⟨H4, H5, H6, H7, H8, H9, H10, H11⟩, H12, ⟨%s, HS0, HS1, HS2, HS3⟩, Hk⟩
  sl_exec! (disch := first | exact hF | exact hL)
  sl_step
  sl_unfold_run_names
  simp -proj (disch := first | exact hz2 | exact hz1) only [View.readCov_cons_toLoadRect, readAt_unread_whole]
  iapply Hk
  iframe
  isplitl [HS0]; · iapply pt_stored c scM1_0 hz2; iexact HS0
  isplitl [HS1]; · iapply pt_stored c scM1_1 hz2; iexact HS1
  isplitl [HS2]; · iapply pt_stored c scM1_2 hz2; iexact HS2
  iapply pt_stored c scM1_3 hz2; iexact HS3

/-- The last of several key tiles: fold, then the finished rows. -/
theorem sound_kernel1_fL (s : Scr F)
    (hF : ¬(Scalar.cmpi .ne (Scalar.extui (Scalar.cmpi .eq (kiW T1 i) 0#32)) 0#32 = 1#1)) (hL : (k1_cond2 (aqW T0 i) (kiW T1 i) = 1#1)) (K : PUnit → sProp 𝕄) :
    iprop(tblOwn c q T0 T1
      ∗ inOwn c arg4 arg5 arg6 arg7 arg8 arg9 arg10 arg11 x4 x5 x6 x7 x8 x9 x10 x11
      ∗ (∃ d, owns (c : Thread nD τ) arg12 fullShare d)
      ∗ scrOwn c s
      ∗ (iprop(tblOwn c q T0 T1
          ∗ inOwn c arg4 arg5 arg6 arg7 arg8 arg9 arg10 arg11 x4 x5 x6 x7 x8 x9 x10 x11
          ∗ owns (c : Thread nD τ) arg12 fullShare (epilogue (step (aqW T0 i) (kiW T1 i) s x7 x8) x9 x10 x11)
          ∗ scrOwn c (step (aqW T0 i) (kiW T1 i) s x7 x8)) -∗ K ⟨⟩))
      ⊢ wp frame (wpE (defs₀ (F := F)) Variants.none c none) Set.univ
          (cc1__flash_ln_kernel i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _) scM1_2 (Memref.isWhole_whole _) scM1_3 (Memref.isWhole_whole _)) K := by
  simp -proj (disch := first | assumption | exact Memref.isWhole_whole _) only [tblOwn, inOwn, scrOwn, owns_eq_unread]
  rw [cc1__flash_ln_kernel_eq_skeleton, cc1__flash_ln_kernel_skel, k1_part1_eq_skeleton, k1_part1_skel]
  iintro ⟨⟨HT0, HT1⟩, ⟨H4, H5, H6, H7, H8, H9, H10, H11⟩, ⟨%d, H12⟩, ⟨HS0, HS1, HS2, HS3⟩, Hk⟩
  sl_exec! (disch := first | exact hF | exact hL)
  sl_step
  sl_unfold_run_names
  simp -proj (disch := first | exact hz2 | exact hz1) only [View.readCov_cons_toLoadRect, readAt_unread_whole]
  iapply Hk
  iframe
  isplitl [H12]; · iapply pt_stored c arg12 hz2; iexact H12
  isplitl [HS0]; · iapply pt_stored c scM1_0 hz2; iexact HS0
  isplitl [HS1]; · iapply pt_stored c scM1_1 hz2; iexact HS1
  isplitl [HS2]; · iapply pt_stored c scM1_2 hz2; iexact HS2
  iexact HS3

/-- A middle key tile: fold only. -/
theorem sound_kernel1_fl (s : Scr F) (y : Vec F S512x1024 .bf16)
    (hF : ¬(Scalar.cmpi .ne (Scalar.extui (Scalar.cmpi .eq (kiW T1 i) 0#32)) 0#32 = 1#1)) (hL : ¬(k1_cond2 (aqW T0 i) (kiW T1 i) = 1#1)) (K : PUnit → sProp 𝕄) :
    iprop(tblOwn c q T0 T1
      ∗ inOwn c arg4 arg5 arg6 arg7 arg8 arg9 arg10 arg11 x4 x5 x6 x7 x8 x9 x10 x11
      ∗ owns (c : Thread nD τ) arg12 fullShare y
      ∗ scrOwn c s
      ∗ (iprop(tblOwn c q T0 T1
          ∗ inOwn c arg4 arg5 arg6 arg7 arg8 arg9 arg10 arg11 x4 x5 x6 x7 x8 x9 x10 x11
          ∗ owns (c : Thread nD τ) arg12 fullShare y
          ∗ scrOwn c (step (aqW T0 i) (kiW T1 i) s x7 x8)) -∗ K ⟨⟩))
      ⊢ wp frame (wpE (defs₀ (F := F)) Variants.none c none) Set.univ
          (cc1__flash_ln_kernel i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _) scM1_2 (Memref.isWhole_whole _) scM1_3 (Memref.isWhole_whole _)) K := by
  simp -proj (disch := first | assumption | exact Memref.isWhole_whole _) only [tblOwn, inOwn, scrOwn, owns_eq_unread]
  rw [cc1__flash_ln_kernel_eq_skeleton, cc1__flash_ln_kernel_skel, k1_part1_eq_skeleton, k1_part1_skel]
  iintro ⟨⟨HT0, HT1⟩, ⟨H4, H5, H6, H7, H8, H9, H10, H11⟩, H12, ⟨HS0, HS1, HS2, HS3⟩, Hk⟩
  sl_exec! (disch := first | exact hF | exact hL)
  sl_step
  sl_unfold_run_names
  simp -proj (disch := first | exact hz2 | exact hz1) only [View.readCov_cons_toLoadRect, readAt_unread_whole]
  iapply Hk
  iframe
  isplitl [HS0]; · iapply pt_stored c scM1_0 hz2; iexact HS0
  isplitl [HS1]; · iapply pt_stored c scM1_1 hz2; iexact HS1
  isplitl [HS2]; · iapply pt_stored c scM1_2 hz2; iexact HS2
  iexact HS3

end Cert.Kernel.Hand

end
-- ==== Proof.B.R1Dat.lean ====
import proofs.«405582_j50302656971267_3_alg».proof.Proof.B.R1Body
import proofs.«405582_j50302656971267_3_alg».proof.Proof.LibSched
import Idealize.ShloMosaic.Lib.Pipeline.Kit
import Idealize.ShloMosaic.Lib.Pipeline.TableIdle
import Idealize.ShloMosaic.Lib.Pipeline.FrameBody
import Idealize.ShloMosaic.Lib.Pipeline.Regions
import Idealize.ShloMosaic.Lib.Affine
import Idealize.ShloMosaic.Lib.Decide
import Idealize.ShloMosaic.Lib.Tactic
set_option Elab.async false
noncomputable section
namespace Cert.Kernel.Hand
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibSched
variable {F : FTy → Type} [FloatOps F]

local notation "𝕄" => MT nD τ sig Unit (Elt F) ℕ (UR sig nD τ) ℕ

def T0c : S2x18.Idx → BitVec 32 := fun i => lit0 (S2x18.rowMajor i)
def T1c : S2x18.Idx → BitVec 32 := fun i => lit1 (S2x18.rowMajor i)
def pf1 : pre1.Contents (Elt F) := fun
  | ⟨0, _⟩ => T0c
  | ⟨1, _⟩ => T1c
  | ⟨_ + 2, h⟩ => absurd h (Nat.not_lt.2 (Nat.le_add_left _ _))

def tabW (T : S2x18.Idx → BitVec 32) (i : grid1.Coords) : BitVec 32 :=
  T ((Rect.unit (s := S2x18) (k1_off1 i) S1x1.size (k1_off1_inb i)).emb (Shape.Idx.first (numel1_S1x1.symm ▸ Nat.one_pos)))

theorem tab_aq : ∀ t : Fin grid1.N, tabW T0c (grid1.coords t) = BitVec.ofNat 32 (aqList.getD t.val 0) := by decide +kernel
theorem tab_ki : ∀ t : Fin grid1.N, tabW T1c (grid1.coords t) = BitVec.ofNat 32 (kiList.getD t.val 0) := by decide +kernel
theorem tab0_le : ∀ i : grid1.Coords, (tabW T0c i).toNat ≤ 7 := by decide +kernel
theorem tab1_le : ∀ i : grid1.Coords, (tabW T1c i).toNat ≤ 7 := by decide +kernel
theorem blk_inb {v : ℕ} (hv : v ≤ 7) : ∀ a : Fin 2, ((![v, (0#32 : BitVec 32).toNat] : Fin 2 → ℕ) a + 1) * S512x1024.size a ≤ S4096x1024.size a
  | ⟨0, _⟩ => by show (v + 1) * 512 ≤ 4096; omega
  | ⟨1, _⟩ => by show (0 + 1) * 1024 ≤ 1024; omega
  | ⟨_ + 2, h⟩ => absurd h (by omega)

theorem ok_pf1 : ok1 (F := F) pf1 :=
  ⟨fun i => ⟨blk_inb (tab0_le i), .inr (Affine.block_words_dvd (of_decide_eq_true rfl) (by decide))⟩,
   fun i => ⟨blk_inb (tab1_le i), .inr (Affine.block_words_dvd (of_decide_eq_true rfl) (by decide))⟩,
   fun i => ⟨blk_inb (tab1_le i), .inr (Affine.block_words_dvd (of_decide_eq_true rfl) (by decide))⟩,
   fun i => ⟨blk_inb (tab0_le i), .inl rfl⟩,
   fun i => ⟨blk_inb (tab0_le i), .inr (Affine.block_words_dvd (of_decide_eq_true rfl) (by decide))⟩⟩

abbrev adm : (p : Fin 3) → (pcfgs (F := F) p).Adm
  | ⟨0, _⟩ => cfg0.toPCfg_adm
  | ⟨1, _⟩ => ⟨pf1, ok_pf1⟩
  | ⟨2, _⟩ => cfg2.toPCfg_adm
  | ⟨_ + 3, h⟩ => absurd h (by omega)

theorem adm_tab0 : (adm (F := F) 1).1 0 = fun i => lit0 (S2x18.rowMajor i) := rfl
theorem adm_tab1 : (adm (F := F) 1).1 1 = fun i => lit1 (S2x18.rowMajor i) := rfl

variable (F) in
abbrev cfg1 : Pipeline.Cfg sig Λ₀ := Pipeline.pin (pcfgs (F := F)) adm 1

theorem N1 : (cfg1 F).N = 36 := N_1
theorem lt36 (t : Fin (cfg1 F).N) : t.val < 36 := by have h := t.isLt; have hN := N1 (F := F); omega

theorem cmp_first : ∀ n, n < 8 →
    ((Scalar.cmpi .ne (Scalar.extui (Scalar.cmpi .eq (BitVec.ofNat 32 n) 0#32)) 0#32 = 1#1) ↔ n = 0) := by decide
theorem cmp_last : ∀ a, a < 8 → ∀ k, k < 8 → ((k1_cond2 (BitVec.ofNat 32 a) (BitVec.ofNat 32 k) = 1#1) ↔ k = a) := by decide

theorem off1_in (i : grid1.Coords) : ∀ a, k1_off1 i a + 1 ≤ S2x18.size a
  | ⟨0, _⟩ => k1_off1_inb i 0
  | ⟨1, _⟩ => k1_off1_inb i 1

/-- The tables read at a point's own offsets are the tables' words there. -/
theorem atD_tab (T : S2x18.Idx → BitVec 32) (i : grid1.Coords) :
    (if h : ∀ a, k1_off1 i a + 1 ≤ S2x18.size a then T (fun a => ⟨k1_off1 i a, h a⟩) else default) = tabW T i := by
  rw [dif_pos (off1_in i)]; unfold tabW; congr 1
theorem atD_pf1_0 (i : grid1.Coords) : (pf1 (F := F)).atD 0 (k1_off1 i) = tabW T0c i := atD_tab T0c i
theorem atD_pf1_1 (i : grid1.Coords) : (pf1 (F := F)).atD 1 (k1_off1 i) = tabW T1c i := atD_tab T1c i

def aqAt (t : Fin (cfg1 F).N) : ℕ := aqList.getD t.val 0
def kiAt (t : Fin (cfg1 F).N) : ℕ := kiList.getD t.val 0
abbrev firstAt (t : Fin (cfg1 F).N) : Prop := kiAt t = 0
abbrev lastAt (t : Fin (cfg1 F).N) : Prop := kiAt t = aqAt t

theorem aqW_at (t : Fin (cfg1 F).N) : aqW (F := F) T0c ((cfg1 F).grid.coords t) = BitVec.ofNat 32 (aqAt t) := tab_aq t
theorem kiW_at (t : Fin (cfg1 F).N) : kiW (F := F) T1c ((cfg1 F).grid.coords t) = BitVec.ofNat 32 (kiAt t) := tab_ki t

theorem kiAt_le_aqAt (t : Fin (cfg1 F).N) : kiAt t ≤ aqAt t := (sched_le t.val (lt36 t)).1
theorem aqAt_le (t : Fin (cfg1 F).N) : aqAt t ≤ 7 := (sched_le t.val (lt36 t)).2

theorem prev_of_not_first (t : Fin (cfg1 F).N) (h : ¬ firstAt t) :
    ∃ h0 : t.val ≠ 0, aqAt (⟨t.val - 1, by omega⟩ : Fin (cfg1 F).N) = aqAt t ∧ kiAt (⟨t.val - 1, by omega⟩ : Fin (cfg1 F).N) + 1 = kiAt t :=
  have hp := sched_prev t.val (lt36 t) h
  ⟨hp.1, hp.2.1, hp.2.2⟩

theorem firstAt_zero (t : Fin (cfg1 F).N) (h : t.val = 0) : firstAt t := by
  show kiList.getD t.val 0 = 0
  rw [h]; rfl

theorem condF_iff (t : Fin (cfg1 F).N) :
    (Scalar.cmpi .ne (Scalar.extui (Scalar.cmpi .eq (kiW (F := F) T1c ((cfg1 F).grid.coords t)) 0#32)) 0#32 = 1#1) ↔ firstAt t := by
  rw [kiW_at t]
  exact cmp_first (kiAt t) (by have := kiAt_le_aqAt t; have := aqAt_le t; omega)
theorem condL_iff (t : Fin (cfg1 F).N) :
    (k1_cond2 (aqW (F := F) T0c ((cfg1 F).grid.coords t)) (kiW (F := F) T1c ((cfg1 F).grid.coords t)) = 1#1) ↔ lastAt t := by
  rw [aqW_at t, kiW_at t]
  exact cmp_last (aqAt t) (by have := aqAt_le t; omega) (kiAt t) (by have := kiAt_le_aqAt t; have := aqAt_le t; omega)

theorem aq_nat (t : Fin (cfg1 F).N) : (tabW T0c (grid1.coords t)).toNat = aqAt t := by
  rw [tab_aq t]; exact toNat_tile (aqAt_le t)
theorem ki_nat (t : Fin (cfg1 F).N) : (tabW T1c (grid1.coords t)).toNat = kiAt t := by
  rw [tab_ki t]; exact toNat_tile ((kiAt_le_aqAt t).trans (aqAt_le t))

theorem index1_0 (t : Fin (cfg1 F).N) : ((cfg1 F).win (0 : Fin 9)).index t = ![aqAt t, 0] := congrArg (![·, 0]) (aq_nat t)
theorem index1_1 (t : Fin (cfg1 F).N) : ((cfg1 F).win (1 : Fin 9)).index t = ![0, 0] := rfl
theorem index1_2 (t : Fin (cfg1 F).N) : ((cfg1 F).win (2 : Fin 9)).index t = ![0] := rfl
theorem index1_3 (t : Fin (cfg1 F).N) : ((cfg1 F).win (3 : Fin 9)).index t = ![kiAt t, 0] := congrArg (![·, 0]) (ki_nat t)
theorem index1_4 (t : Fin (cfg1 F).N) : ((cfg1 F).win (4 : Fin 9)).index t = ![kiAt t, 0] := congrArg (![·, 0]) (ki_nat t)
theorem index1_5 (t : Fin (cfg1 F).N) : ((cfg1 F).win (5 : Fin 9)).index t = ![aqAt t, 0] := congrArg (![·, 0]) (aq_nat t)
theorem index1_6 (t : Fin (cfg1 F).N) : ((cfg1 F).win (6 : Fin 9)).index t = ![0] := rfl
theorem index1_7 (t : Fin (cfg1 F).N) : ((cfg1 F).win (7 : Fin 9)).index t = ![0] := rfl
theorem index1_8 (t : Fin (cfg1 F).N) : ((cfg1 F).win (8 : Fin 9)).index t = ![aqAt t, 0] := congrArg (![·, 0]) (aq_nat t)

theorem flush1_8 (t : Fin (cfg1 F).N) : ((cfg1 F).win (8 : Fin 9)).flush t = true ↔ lastAt t := by
  have hlt := lt36 t
  have hN : (cfg1 F).N = 36 := N1 (F := F)
  refine Iff.trans ?_ (sched_next t.val hlt).symm
  unfold Pipeline.Window.flush
  rw [show ((cfg1 F).win (8 : Fin 9)).isOut = true from rfl, Bool.true_and, Bool.or_eq_true, decide_eq_true_eq, decide_eq_true_eq]
  constructor
  · rintro (h | ⟨h, hne⟩)
    · exact Or.inl (h.trans hN)
    · refine Or.inr fun e => hne ?_
      rw [index1_8, index1_8]
      exact congrArg (fun a => ![a, 0]) e
  · rintro (h | hne)
    · exact Or.inl (h.trans hN.symm)
    · by_cases h1 : t.val + 1 < (cfg1 F).N
      · refine Or.inr ⟨h1, fun e => hne ?_⟩
        rw [index1_8, index1_8] at e
        exact congrFun e 0
      · exact Or.inl (by have hN' : (cfg1 F).grid.N = 36 := hN; have h1' : ¬ t.val + 1 < (cfg1 F).grid.N := h1; omega)

theorem idle1_8 (t : Fin (cfg1 F).N) : (cfg1 F).idle (8 : Fin 9) ((cfg1 F).grid.coords t) = true ↔ ¬ lastAt t := by
  show (!(k1_cond2 ((pf1 (F := F)).atD 0 (k1_off1 (grid1.coords t))) ((pf1 (F := F)).atD 1 (k1_off1 (grid1.coords t))) == 1#1)) = true ↔ _
  rw [atD_pf1_0, atD_pf1_1, tab_aq t, tab_ki t, Bool.not_eq_true', beq_eq_false_iff_ne]
  exact (cmp_last (aqAt t) (by have := aqAt_le t; omega) (kiAt t) (by have := kiAt_le_aqAt t; have := aqAt_le t; omega)).not

theorem fresh1_8 (t : Fin (cfg1 F).N) : (cfg1 F).fresh (8 : Fin 9) t.val = true :=
  (cfg1 F).fresh_tab (8 : Fin 9) (fun _ => true) rfl (fun u => by
    show true = (((cfg1 F).win (8 : Fin 9)).flush u || ((cfg1 F).idle (8 : Fin 9) ((cfg1 F).grid.coords u) && true))
    by_cases hl : lastAt u
    · rw [(flush1_8 u).mpr hl]; rfl
    · rw [(idle1_8 u).mpr hl, Bool.and_true, Bool.or_true]) t.val (Nat.le_of_lt t.isLt)

section Region
variable (V : (c : Dev nD) → (b : Ref sig .tc) → Buf (Elt F) ((c : Thread nD τ).loc b))

def iblk1 (c : Dev nD) (w : Fin (cfg1 F).W) (t : Fin (cfg1 F).N) : (((cfg1 F).win w).xblock ((cfg1 F).grid.coords t)).Idx → Elt F ((cfg1 F).win w).elt :=
  (((cfg1 F).win w).blk t).view.read (Elt F) (V c (Pipeline.arrRef spec1 w))

def scrAny : Scr F :=
  ⟨fun _ => (Elt.inhabited F .f32).default, fun _ => (Elt.inhabited F .f32).default, fun _ => (Elt.inhabited F .f32).default, fun _ => (Elt.inhabited F .bf16).default⟩
def outAny : Vec F S512x1024 .bf16 := fun _ => (Elt.inhabited F .bf16).default

def step1 (c : Dev nD) (t : Fin (cfg1 F).N) (prev : Scr F × Vec F S512x1024 .bf16) : Scr F × Vec F S512x1024 .bf16 :=
  let s' : Scr F := step (BitVec.ofNat 32 (aqAt t)) (BitVec.ofNat 32 (kiAt t))
    (if firstAt t then reset (iblk1 V c (0 : Fin 9) t) (iblk1 V c (1 : Fin 9) t) (iblk1 V c (2 : Fin 9) t) else prev.1)
    (iblk1 V c (3 : Fin 9) t) (iblk1 V c (4 : Fin 9) t)
  (s', if lastAt t then epilogue s' (iblk1 V c (5 : Fin 9) t) (iblk1 V c (6 : Fin 9) t) (iblk1 V c (7 : Fin 9) t) else prev.2)

def traj1 (c : Dev nD) : (n : ℕ) → n < (cfg1 F).N → Scr F × Vec F S512x1024 .bf16
  | 0, h => step1 V c ⟨0, h⟩ (scrAny, outAny)
  | n + 1, h => step1 V c ⟨n + 1, h⟩ (traj1 c n (Nat.lt_of_succ_lt h))

theorem traj1_step (c : Dev nD) (t : Fin (cfg1 F).N) :
    traj1 V c t.val t.isLt = step1 V c t (if h0 : t.val = 0 then (scrAny, outAny) else traj1 V c (t.val - 1) (by omega)) := by
  obtain ⟨n, hn⟩ := t
  cases n with
  | zero => rfl
  | succ n => rfl

theorem step1_fst (c : Dev nD) (t : Fin (cfg1 F).N) (prev : Scr F × Vec F S512x1024 .bf16) :
    (step1 V c t prev).1 = step (BitVec.ofNat 32 (aqAt t)) (BitVec.ofNat 32 (kiAt t))
      (if firstAt t then reset (iblk1 V c (0 : Fin 9) t) (iblk1 V c (1 : Fin 9) t) (iblk1 V c (2 : Fin 9) t) else prev.1)
      (iblk1 V c (3 : Fin 9) t) (iblk1 V c (4 : Fin 9) t) := rfl
theorem step1_snd (c : Dev nD) (t : Fin (cfg1 F).N) (prev : Scr F × Vec F S512x1024 .bf16) :
    (step1 V c t prev).2 = if lastAt t then epilogue (step1 V c t prev).1 (iblk1 V c (5 : Fin 9) t) (iblk1 V c (6 : Fin 9) t) (iblk1 V c (7 : Fin 9) t) else prev.2 := rfl

theorem traj1_first (c : Dev nD) (t : Fin (cfg1 F).N) (h : firstAt t) :
    (traj1 V c t.val t.isLt).1 = step (BitVec.ofNat 32 (aqAt t)) (BitVec.ofNat 32 (kiAt t))
      (reset (iblk1 V c (0 : Fin 9) t) (iblk1 V c (1 : Fin 9) t) (iblk1 V c (2 : Fin 9) t)) (iblk1 V c (3 : Fin 9) t) (iblk1 V c (4 : Fin 9) t) := by
  rw [traj1_step, step1_fst, if_pos h]
theorem traj1_next (c : Dev nD) (t : Fin (cfg1 F).N) (h : ¬ firstAt t) (h0 : t.val ≠ 0) :
    (traj1 V c t.val t.isLt).1 = step (BitVec.ofNat 32 (aqAt t)) (BitVec.ofNat 32 (kiAt t))
      (traj1 V c (t.val - 1) (by omega)).1 (iblk1 V c (3 : Fin 9) t) (iblk1 V c (4 : Fin 9) t) := by
  rw [traj1_step, step1_fst, if_neg h, dif_neg h0]
theorem traj1_out (c : Dev nD) (t : Fin (cfg1 F).N) (h : lastAt t) :
    (traj1 V c t.val t.isLt).2 = epilogue (traj1 V c t.val t.isLt).1 (iblk1 V c (5 : Fin 9) t) (iblk1 V c (6 : Fin 9) t) (iblk1 V c (7 : Fin 9) t) := by
  rw [traj1_step, step1_snd, if_pos h]

def scrBefore1 (c : Dev nD) (t : Fin ((cfg1 F).N + 1)) : Scr F :=
  if h : t.val = 0 then scrAny else (traj1 V c (t.val - 1) (by omega)).1

abbrev scr1 : List (Ref sig .tc) := [cc1_scratch0, cc1_scratch1, cc1_scratch2, cc1_scratch3]

def Phi1 (c : Dev nD) (t : Fin ((cfg1 F).N + 1)) : sProp 𝕄 :=
  iprop((∃ s : Scr F, ⌜t.val ≠ 0 → s = scrBefore1 V c t⌝ ∗ scrOwn c s)
    ∗ tblOwn c fullShare T0c T1c
    ∗ Pipeline.scopedRestBut (Ix := Unit) (Name := ℕ) (U := UR sig nD τ) (Lvl := ℕ) (Val := Elt F) spec1 c scr1
    ∗ ∃ r, prngReg c r)

def dat1 (c : Dev nD) : Dat τ (Elt F) Unit ℕ (UR sig nD τ) ℕ (cfg1 F) c where
  A w := V c (Pipeline.arrRef spec1 w)
  after w t := match w with
    | ⟨0, _⟩ => iblk1 V c (0 : Fin 9) t
    | ⟨1, _⟩ => iblk1 V c (1 : Fin 9) t
    | ⟨2, _⟩ => iblk1 V c (2 : Fin 9) t
    | ⟨3, _⟩ => iblk1 V c (3 : Fin 9) t
    | ⟨4, _⟩ => iblk1 V c (4 : Fin 9) t
    | ⟨5, _⟩ => iblk1 V c (5 : Fin 9) t
    | ⟨6, _⟩ => iblk1 V c (6 : Fin 9) t
    | ⟨7, _⟩ => iblk1 V c (7 : Fin 9) t
    | ⟨8, _⟩ => (traj1 V c t.val t.isLt).2
  Φ t := Phi1 V c t
  q _ := fullShare
  owed _ := 0

theorem A_eq1 (c : Dev nD) (w : Fin (cfg1 F).W) : (dat1 V c).A w = V c (Pipeline.arrRef spec1 w) := by
  dsimp only [dat1]

theorem after1_8 (c : Dev nD) (t : Fin (cfg1 F).N) : (dat1 V c).after (8 : Fin 9) t = (traj1 V c t.val t.isLt).2 := by dsimp only [dat1]

theorem before1_0 (c : Dev nD) (t : Fin (cfg1 F).N) (d) : (dat1 V c).before (0 : Fin 9) t d = iblk1 V c (0 : Fin 9) t :=
  (dat1 V c).before_in_eq_fetched (0 : Fin 9) rfl (fun _ => rfl) (fun _ _ _ => rfl) (fun _ => rfl) t d
theorem before1_1 (c : Dev nD) (t : Fin (cfg1 F).N) (d) : (dat1 V c).before (1 : Fin 9) t d = iblk1 V c (1 : Fin 9) t :=
  (dat1 V c).before_in_eq_fetched (1 : Fin 9) rfl (fun _ => rfl) (fun _ _ _ => rfl) (fun _ => rfl) t d
theorem before1_2 (c : Dev nD) (t : Fin (cfg1 F).N) (d) : (dat1 V c).before (2 : Fin 9) t d = iblk1 V c (2 : Fin 9) t :=
  (dat1 V c).before_in_eq_fetched (2 : Fin 9) rfl (fun _ => rfl) (fun _ _ _ => rfl) (fun _ => rfl) t d
theorem before1_3 (c : Dev nD) (t : Fin (cfg1 F).N) (d) : (dat1 V c).before (3 : Fin 9) t d = iblk1 V c (3 : Fin 9) t :=
  (dat1 V c).before_in_eq_fetched (3 : Fin 9) rfl (fun _ => rfl) (fun _ _ _ => rfl) (fun _ => rfl) t d
theorem before1_4 (c : Dev nD) (t : Fin (cfg1 F).N) (d) : (dat1 V c).before (4 : Fin 9) t d = iblk1 V c (4 : Fin 9) t :=
  (dat1 V c).before_in_eq_fetched (4 : Fin 9) rfl (fun _ => rfl) (fun _ _ _ => rfl) (fun _ => rfl) t d
theorem before1_5 (c : Dev nD) (t : Fin (cfg1 F).N) (d) : (dat1 V c).before (5 : Fin 9) t d = iblk1 V c (5 : Fin 9) t :=
  (dat1 V c).before_in_eq_fetched (5 : Fin 9) rfl (fun _ => rfl) (fun _ _ _ => rfl) (fun _ => rfl) t d
theorem before1_6 (c : Dev nD) (t : Fin (cfg1 F).N) (d) : (dat1 V c).before (6 : Fin 9) t d = iblk1 V c (6 : Fin 9) t :=
  (dat1 V c).before_in_eq_fetched (6 : Fin 9) rfl (fun _ => rfl) (fun _ _ _ => rfl) (fun _ => rfl) t d
theorem before1_7 (c : Dev nD) (t : Fin (cfg1 F).N) (d) : (dat1 V c).before (7 : Fin 9) t d = iblk1 V c (7 : Fin 9) t :=
  (dat1 V c).before_in_eq_fetched (7 : Fin 9) rfl (fun _ => rfl) (fun _ _ _ => rfl) (fun _ => rfl) t d
theorem before1_8 (c : Dev nD) (t : Fin (cfg1 F).N) (d) : (dat1 V c).before (8 : Fin 9) t d = d := by
  rw [(dat1 V c).before_out_traj (8 : Fin 9) rfl (fun _ _ => rfl)
    (fun t _ _ hf => absurd ((fresh1_8 t).symm.trans hf) (by decide)) t.val t rfl d, fresh1_8 t, if_pos rfl]

theorem scrBefore1_succ (c : Dev nD) (t : Fin (cfg1 F).N) : scrBefore1 V c t.succ = (traj1 V c t.val t.isLt).1 := by
  unfold scrBefore1; rw [dif_neg (by simp)]; rfl
theorem scrBefore1_castSucc (c : Dev nD) (t : Fin (cfg1 F).N) (h0 : t.val ≠ 0) :
    scrBefore1 V c t.castSucc = (traj1 V c (t.val - 1) (by omega)).1 := by
  unfold scrBefore1
  simp only [Fin.coe_castSucc]
  rw [dif_neg h0]

abbrev ms1_0 (t : Fin (cfg1 F).N) : Memref sig .tc .vmem S512x1024 .bf16 := spec1_0.stage ((cfg1 F).slots t (0 : Fin 9))
abbrev ms1_1 (t : Fin (cfg1 F).N) : Memref sig .tc .vmem S1024x1024 .bf16 := spec1_1.stage ((cfg1 F).slots t (1 : Fin 9))
abbrev ms1_2 (t : Fin (cfg1 F).N) : Memref sig .tc .vmem S1024 .f32 := spec1_2.stage ((cfg1 F).slots t (2 : Fin 9))
abbrev ms1_3 (t : Fin (cfg1 F).N) : Memref sig .tc .vmem S512x1024 .bf16 := spec1_3.stage ((cfg1 F).slots t (3 : Fin 9))
abbrev ms1_4 (t : Fin (cfg1 F).N) : Memref sig .tc .vmem S512x1024 .bf16 := spec1_4.stage ((cfg1 F).slots t (4 : Fin 9))
abbrev ms1_5 (t : Fin (cfg1 F).N) : Memref sig .tc .vmem S512x1024 .f32 := spec1_5.stage ((cfg1 F).slots t (5 : Fin 9))
abbrev ms1_6 (t : Fin (cfg1 F).N) : Memref sig .tc .vmem S1024 .f32 := spec1_6.stage ((cfg1 F).slots t (6 : Fin 9))
abbrev ms1_7 (t : Fin (cfg1 F).N) : Memref sig .tc .vmem S1024 .f32 := spec1_7.stage ((cfg1 F).slots t (7 : Fin 9))
abbrev ms1_8 (t : Fin (cfg1 F).N) : Memref sig .tc .vmem S512x1024 .bf16 := spec1_8.stage ((cfg1 F).slots t (8 : Fin 9))

abbrev bodyAt1 (t : Fin (cfg1 F).N) : Prog (TpuEff nD τ sig (Elt F) Λ₀ .tc) PUnit :=
  cc1__flash_ln_kernel ((cfg1 F).grid.coords t) tbM1_0 (Memref.isWhole_whole _) tbM1_1 (Memref.isWhole_whole _)
    (ms1_0 t) (stage_whole1 0 _) (ms1_1 t) (stage_whole1 1 _) (ms1_2 t) (stage_whole1 2 _) (ms1_3 t) (stage_whole1 3 _) (ms1_4 t) (stage_whole1 4 _)
    (ms1_5 t) (stage_whole1 5 _) (ms1_6 t) (stage_whole1 6 _) (ms1_7 t) (stage_whole1 7 _) (ms1_8 t) (stage_whole1 8 _)
    scM1_0 (Memref.isWhole_whole _) scM1_1 (Memref.isWhole_whole _) scM1_2 (Memref.isWhole_whole _) scM1_3 (Memref.isWhole_whole _)

/-- The eight input blocks of point `t`, owned. -/
def inAt (c : Dev nD) (t : Fin (cfg1 F).N) : sProp 𝕄 :=
  inOwn c (ms1_0 t) (ms1_1 t) (ms1_2 t) (ms1_3 t) (ms1_4 t) (ms1_5 t) (ms1_6 t) (ms1_7 t)
    (iblk1 V c (0 : Fin 9) t) (iblk1 V c (1 : Fin 9) t) (iblk1 V c (2 : Fin 9) t) (iblk1 V c (3 : Fin 9) t) (iblk1 V c (4 : Fin 9) t) (iblk1 V c (5 : Fin 9) t) (iblk1 V c (6 : Fin 9) t) (iblk1 V c (7 : Fin 9) t)

/-- The output block's part of what a point returns: the finished rows at a last key tile, else the block as found. -/
def out8 (c : Dev nD) (t : Fin (cfg1 F).N) : sProp 𝕄 :=
  match (cfg1 F).idle (8 : Fin 9) ((cfg1 F).grid.coords t) with
  | true =>
    match ((cfg1 F).win (8 : Fin 9)).flush t with
    | false => iprop(∃ d, owns (c : Thread nD τ) (ms1_8 t) fullShare ((dat1 V c).before (8 : Fin 9) t d))
    | true => owns (c : Thread nD τ) (ms1_8 t) fullShare ((dat1 V c).after (8 : Fin 9) t)
  | false => owns (c : Thread nD τ) (ms1_8 t) fullShare ((dat1 V c).after (8 : Fin 9) t)

/-- Any contents serve where the block is returned as found; at a last key tile they must be the trajectory's. -/
theorem out8_of (c : Dev nD) (t : Fin (cfg1 F).N) (x : Vec F S512x1024 .bf16) (hx : lastAt t → x = (traj1 V c t.val t.isLt).2) :
    owns (c : Thread nD τ) (ms1_8 t) fullShare x ⊢ out8 V c t := by
  unfold out8
  by_cases hL : lastAt t
  · rw [show (cfg1 F).idle (8 : Fin 9) ((cfg1 F).grid.coords t) = false from Bool.eq_false_iff.mpr fun h => (idle1_8 t).mp h hL]
    simp only [after1_8 V c, hx hL]
    iintro H; iexact H
  · rw [(idle1_8 t).mpr hL, show ((cfg1 F).win (8 : Fin 9)).flush t = false from Bool.eq_false_iff.mpr fun h => hL ((flush1_8 t).mp h)]
    simp only [before1_8 V c]
    iintro H; iexists x; iexact H

/-- From carried buffers that agree with the trajectory before `t`, one step gives the trajectory's after `t`. -/
theorem step1_traj (c : Dev nD) (t : Fin (cfg1 F).N) (s : Scr F) (y : Vec F S512x1024 .bf16)
    (hs : t.castSucc.val ≠ 0 → s = scrBefore1 V c t.castSucc) :
    (step1 V c t (s, y)).1 = scrBefore1 V c t.succ ∧ (lastAt t → (step1 V c t (s, y)).2 = (traj1 V c t.val t.isLt).2) := by
  have e : (step1 V c t (s, y)).1 = (traj1 V c t.val t.isLt).1 := by
    rw [traj1_step, step1_fst, step1_fst]
    by_cases hF : firstAt t
    · rw [if_pos hF, if_pos hF]
    · have h0 : t.val ≠ 0 := fun e0 => hF (firstAt_zero t e0)
      rw [if_neg hF, if_neg hF, dif_neg h0, hs (by rw [Fin.coe_castSucc]; exact h0), scrBefore1_castSucc V c t h0]
  refine ⟨e.trans (scrBefore1_succ V c t).symm, fun hL => ?_⟩
  rw [traj1_out V c t hL, ← e, step1_snd, if_pos hL]

/-- The body at point `t` takes the carried buffers `s` and the output block `y` to `step1 t (s, y)`: its two tests on the tile numbers pick the run. -/
theorem kernel_at (c : Dev nD) (t : Fin (cfg1 F).N) (s : Scr F) (y : Vec F S512x1024 .bf16) (K : PUnit → sProp 𝕄) :
    iprop(tblOwn c fullShare T0c T1c ∗ inAt V c t ∗ owns (c : Thread nD τ) (ms1_8 t) fullShare y ∗ scrOwn c s
      ∗ (iprop(tblOwn c fullShare T0c T1c ∗ inAt V c t ∗ owns (c : Thread nD τ) (ms1_8 t) fullShare (step1 V c t (s, y)).2
          ∗ scrOwn c (step1 V c t (s, y)).1) -∗ K ⟨⟩))
      ⊢ wp frame (wpE (defs₀ (F := F)) Variants.none c none) Set.univ (bodyAt1 t) K := by
  unfold inAt bodyAt1
  rw [step1_snd, step1_fst, ← aqW_at t, ← kiW_at t]
  dsimp only
  by_cases hF : firstAt t <;> by_cases hL : lastAt t
  · rw [if_pos hF, if_pos hL]; iintro ⟨HT, Hin, H8, HS, HK⟩
    iapply (sound_kernel1_FL c _ fullShare _ _ _ _ _ _ _ _ _ _ _ _ _ _ _ _ _ _ T0c T1c _ _ _ _ _ _ _ _ ((condF_iff t).mpr hF) ((condL_iff t).mpr hL) K); iframe
    isplitl [H8]; · iexists y; iexact H8
    iexists s; iexact HS
  · rw [if_pos hF, if_neg hL]; iintro ⟨HT, Hin, H8, HS, HK⟩
    iapply (sound_kernel1_Fl c _ fullShare _ _ _ _ _ _ _ _ _ _ _ _ _ _ _ _ _ _ T0c T1c _ _ _ _ _ _ _ _ _ ((condF_iff t).mpr hF) (fun h => hL ((condL_iff t).mp h)) K); iframe; iexists s; iexact HS
  · rw [if_neg hF, if_pos hL]; iintro ⟨HT, Hin, H8, HS, HK⟩
    iapply (sound_kernel1_fL c _ fullShare _ _ _ _ _ _ _ _ _ _ _ _ _ _ _ _ _ _ T0c T1c _ _ _ _ _ _ _ _ _ (fun h => hF ((condF_iff t).mp h)) ((condL_iff t).mpr hL) K); iframe; iexists y; iexact H8
  · rw [if_neg hF, if_neg hL]; iintro ⟨HT, Hin, H8, HS, HK⟩
    iapply (sound_kernel1_fl c _ fullShare _ _ _ _ _ _ _ _ _ _ _ _ _ _ _ _ _ _ T0c T1c _ _ _ _ _ _ _ _ _ _ (fun h => hF ((condF_iff t).mp h)) (fun h => hL ((condL_iff t).mp h)) K); iframe

/-- The body's triple at every point: the tables, the inputs and the rest of the invariant pass through; the carried buffers and the output block move by one step of the trajectory. -/
theorem sound_body1 (c : Dev nD) (t : Fin (cfg1 F).N) :
    iprop(Phi1 V c t.castSucc ∗ (dat1 V c).owesAt () t.castSucc
      ∗ (∃ d, owns (c : Thread nD τ) (ms1_0 t) fullShare ((dat1 V c).before (0 : Fin 9) t d))
      ∗ (∃ d, owns (c : Thread nD τ) (ms1_1 t) fullShare ((dat1 V c).before (1 : Fin 9) t d))
      ∗ (∃ d, owns (c : Thread nD τ) (ms1_2 t) fullShare ((dat1 V c).before (2 : Fin 9) t d))
      ∗ (∃ d, owns (c : Thread nD τ) (ms1_3 t) fullShare ((dat1 V c).before (3 : Fin 9) t d))
      ∗ (∃ d, owns (c : Thread nD τ) (ms1_4 t) fullShare ((dat1 V c).before (4 : Fin 9) t d))
      ∗ (∃ d, owns (c : Thread nD τ) (ms1_5 t) fullShare ((dat1 V c).before (5 : Fin 9) t d))
      ∗ (∃ d, owns (c : Thread nD τ) (ms1_6 t) fullShare ((dat1 V c).before (6 : Fin 9) t d))
      ∗ (∃ d, owns (c : Thread nD τ) (ms1_7 t) fullShare ((dat1 V c).before (7 : Fin 9) t d))
      ∗ (∃ d, owns (c : Thread nD τ) (ms1_8 t) fullShare ((dat1 V c).before (8 : Fin 9) t d)))
      ⊢ wp frame (wpE (defs₀ (F := F)) Variants.none c none) Set.univ (bodyAt1 t) (fun _ =>
        iprop(Phi1 V c t.succ ∗ (dat1 V c).owesAt () t.castSucc
        ∗ owns (c : Thread nD τ) (ms1_0 t) fullShare (iblk1 V c (0 : Fin 9) t)
        ∗ owns (c : Thread nD τ) (ms1_1 t) fullShare (iblk1 V c (1 : Fin 9) t)
        ∗ owns (c : Thread nD τ) (ms1_2 t) fullShare (iblk1 V c (2 : Fin 9) t)
        ∗ owns (c : Thread nD τ) (ms1_3 t) fullShare (iblk1 V c (3 : Fin 9) t)
        ∗ owns (c : Thread nD τ) (ms1_4 t) fullShare (iblk1 V c (4 : Fin 9) t)
        ∗ owns (c : Thread nD τ) (ms1_5 t) fullShare (iblk1 V c (5 : Fin 9) t)
        ∗ owns (c : Thread nD τ) (ms1_6 t) fullShare (iblk1 V c (6 : Fin 9) t)
        ∗ owns (c : Thread nD τ) (ms1_7 t) fullShare (iblk1 V c (7 : Fin 9) t)
        ∗ out8 V c t)) := by
  unfold Phi1
  simp only [before1_0 V c, before1_1 V c, before1_2 V c, before1_3 V c, before1_4 V c, before1_5 V c, before1_6 V c, before1_7 V c, before1_8 V c]
  iintro ⟨⟨⟨%s, %hs, HS⟩, HT, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨e1, e2⟩ := step1_traj V c t s d8 hs
  iapply (kernel_at V c t s d8 _)
  unfold inAt inOwn
  iframe HT H0 H1 H2 H3 H4 H5 H6 H7 H8 HS
  iintro ⟨HT, ⟨H0, H1, H2, H3, H4, H5, H6, H7⟩, H8, HS⟩
  iframe HT HR HP Ho H0 H1 H2 H3 H4 H5 H6 H7
  isplitl [HS]
  · iexists _; isplitr; swap
    · iexact HS
    · ipureintro; intro _; exact e1
  iapply (out8_of V c t _ e2); iexact H8

theorem body_obligation1 (c : Dev nD) : BodyObligation (dat1 (F := F) V c) (defs₀ (F := F)) Variants.none () Set.univ := fun t => by
  rw [bigSep_W1, bigSep_W1]
  exact sound_body1 V c t

theorem prefHeld1_eq (c : Dev nD) (q : PosShare TreeShare) (pf : pre1.Contents (Elt F)) :
    (Pipeline.prefHeld pre1 c (fun _ => q) pf : sProp 𝕄)
      = iprop((((c : Thread nD τ).loc main_c) ↦{q} pf 0) ∗ (((c : Thread nD τ).loc main_c_0) ↦{q} pf 1)) := by
  unfold Pipeline.prefHeld
  exact bigSep_univ_eq_bigSepL [(0 : Fin 2), (1 : Fin 2)] (by decide) (by decide) _

def someBuf (c : Dev nD) (r : Ref sig .tc) : sProp 𝕄 :=
  iprop(∃ f : Buf (Elt F) ((c : Thread nD τ).loc r), ((c : Thread nD τ).loc r) ↦{fullShare} f)
/-- The call's four scratch buffers, each owned at some contents. -/
def scrSome (c : Dev nD) : sProp 𝕄 :=
  iprop(someBuf (F := F) c cc1_scratch0 ∗ someBuf (F := F) c cc1_scratch1 ∗ someBuf (F := F) c cc1_scratch2 ∗ someBuf (F := F) c cc1_scratch3)

theorem scopedRest1_split (c : Dev nD) :
    (Pipeline.scopedRest (Ix := Unit) (Name := ℕ) (U := UR sig nD τ) (Lvl := ℕ) (Val := Elt F) (cfg1 F).spec c : sProp 𝕄)
      = iprop(scrSome (F := F) c ∗ Pipeline.scopedRestBut (Ix := Unit) (Name := ℕ) (U := UR sig nD τ) (Lvl := ℕ) (Val := Elt F) spec1 c scr1) :=
  Pipeline.scopedRest_split_of_list (win := spec1) (c := c) scr1 (by decide) (by decide)

theorem scrOwn_iff (c : Dev nD) : (iprop(∃ s : Scr F, scrOwn c s) : sProp 𝕄) ⊣⊢ scrSome (F := F) c := by
  unfold scrOwn scrSome someBuf
  simp only [owns_whole]
  constructor
  · iintro ⟨%s, H0, H1, H2, H3⟩
    isplitl [H0]; · iexists s.mx; iexact H0
    isplitl [H1]; · iexists s.den; iexact H1
    isplitl [H2]; · iexists s.acc; iexact H2
    iexists s.qry; iexact H3
  · iintro ⟨⟨%f0, H0⟩, ⟨%f1, H1⟩, ⟨%f2, H2⟩, ⟨%f3, H3⟩⟩
    iexists (⟨f0, f1, f2, f3⟩ : Scr F)
    iframe H0 H1 H2 H3

theorem hin1 (c : Dev nD) :
    iprop((∃ r, prngReg c r) ∗ Pipeline.prefHeld pre1 c (fun _ => fullShare) (adm (F := F) 1).1
      ∗ Pipeline.scopedRest (Ix := Unit) (Name := ℕ) (U := UR sig nD τ) (Lvl := ℕ) (Val := Elt F) (cfg1 F).spec c)
      ⊢ ((dat1 V c).Φ 0 : sProp 𝕄) := by
  rw [show ((dat1 V c).Φ 0 : sProp 𝕄) = Phi1 V c 0 from rfl, scopedRest1_split, prefHeld1_eq]
  unfold Phi1 tblOwn
  iintro ⟨HP, ⟨HT0, HT1⟩, HS, HR⟩
  isplitl [HS]
  · ihave HS' := (scrOwn_iff (F := F) c).2 $$ HS
    icases HS' with ⟨%s, HS'⟩
    iexists s; isplitr
    · ipureintro; intro h; exact absurd rfl h
    iexact HS'
  isplitl [HT0 HT1]
  · isplitl [HT0]; · iexact HT0
    iexact HT1
  isplitl [HR]; · iexact HR
  iexact HP

theorem hout1 (c : Dev nD) :
    ((dat1 V c).Φ (Fin.last (cfg1 F).N) : sProp 𝕄)
      ⊢ iprop(((∃ r, prngReg c r) ∗ Pipeline.prefHeld pre1 c (fun _ => fullShare) (adm (F := F) 1).1)
        ∗ Pipeline.ownSems0 (fun k : PEmpty => k.elim) c
        ∗ Pipeline.scopedRest (Ix := Unit) (Name := ℕ) (U := UR sig nD τ) (Lvl := ℕ) (Val := Elt F) (cfg1 F).spec c) := by
  rw [show ((dat1 V c).Φ (Fin.last (cfg1 F).N) : sProp 𝕄) = Phi1 V c (Fin.last (cfg1 F).N) from rfl, Pipeline.ownSems0_none,
    scopedRest1_split, prefHeld1_eq]
  unfold Phi1 tblOwn
  iintro ⟨⟨%s, -, HS⟩, ⟨HT0, HT1⟩, HR, HP⟩
  isplitl [HP HT0 HT1]
  · isplitl [HP]; · iexact HP
    isplitl [HT0]; · iexact HT0
    iexact HT1
  isplitr; · iempintro
  isplitl [HS]
  · iapply (scrOwn_iff (F := F) c).1; iexists s; iexact HS
  iexact HR

end Region
end Cert.Kernel.Hand
end
-- ==== Proof.B.R2.lean ====
import proofs.«405582_j50302656971267_3_alg».proof.Proof.Gen.Kernel.Launch
import proofs.«405582_j50302656971267_3_alg».proof.Proof.Gen.Kernel.Skeleton
import proofs.«405582_j50302656971267_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x1024 := Rect.unit (s := S512x1024) ![0, 0] S512x1024.size inb_S512x1024_S512x1024_0_0

abbrev r2_w1_0 : Rect S1024x4096 := Rect.unit (s := S1024x4096) ![0, 0] S1024x1024.size inb_S1024x4096_S1024x1024_0_0
abbrev r2_w1_1 : Rect S1024x4096 := Rect.unit (s := S1024x4096) ![0, 1024] S1024x1024.size inb_S1024x4096_S1024x1024_0_1024
abbrev r2_w1_2 : Rect S1024x4096 := Rect.unit (s := S1024x4096) ![0, 2048] S1024x1024.size inb_S1024x4096_S1024x1024_0_2048
abbrev r2_w1_3 : Rect S1024x4096 := Rect.unit (s := S1024x4096) ![0, 3072] S1024x1024.size inb_S1024x4096_S1024x1024_0_3072

abbrev r2_b1_0 : Rect S4096 := Rect.unit (s := S4096) ![0] S1024.size inb_S4096_S1024_0
abbrev r2_b1_1 : Rect S4096 := Rect.unit (s := S4096) ![1024] S1024.size inb_S4096_S1024_1024
abbrev r2_b1_2 : Rect S4096 := Rect.unit (s := S4096) ![2048] S1024.size inb_S4096_S1024_2048
abbrev r2_b1_3 : Rect S4096 := Rect.unit (s := S4096) ![3072] S1024.size inb_S4096_S1024_3072

abbrev r2_w2_0 : Rect S4096x1024 := Rect.unit (s := S4096x1024) ![0, 0] S1024x1024.size inb_S4096x1024_S1024x1024_0_0
abbrev r2_w2_1 : Rect S4096x1024 := Rect.unit (s := S4096x1024) ![1024, 0] S1024x1024.size inb_S4096x1024_S1024x1024_1024_0
abbrev r2_w2_2 : Rect S4096x1024 := Rect.unit (s := S4096x1024) ![2048, 0] S1024x1024.size inb_S4096x1024_S1024x1024_2048_0
abbrev r2_w2_3 : Rect S4096x1024 := Rect.unit (s := S4096x1024) ![3072, 0] S1024x1024.size inb_S4096x1024_S1024x1024_3072_0

abbrev r2_b2 : Rect S1024 := Rect.unit (s := S1024) ![0] S1024.size inb_S1024_S1024_0

def out2_5 (x0 : Vec F S512x1024 .bf16) (x1 : Vec F S1024x4096 .bf16) (x2 : Vec F S4096 .f32) (x3 : Vec F S4096x1024 .bf16) (x4 : Vec F S1024 .f32) : Vec F S512x1024 .f32 :=
  View.canon [⟨r2_x, k2_pay1 (k2_pay2 (View.ld x0 r2_x))
    (k2_pay3 (View.ld x0 r2_x) (View.ld x1 r2_w1_0) (View.ld x2 r2_b1_0) (View.ld x3 r2_w2_0) (View.ld x1 r2_w1_1) (View.ld x2 r2_b1_1) (View.ld x3 r2_w2_1))
    (k2_pay4 (View.ld x0 r2_x) (View.ld x1 r2_w1_2)) (k2_pay5 (View.ld x2 r2_b1_2))
    (View.ld x3 r2_w2_2) (View.ld x1 r2_w1_3) (View.ld x2 r2_b1_3) (View.ld x3 r2_w2_3) (View.ld x4 r2_b2)⟩]

theorem sound_kernel2 (c : Dev nD) (E : Set ℕ) (i : grid2.Coords) (arg1 : Memref sig .tc .vmem S512x1024 .bf16) (harg1 : arg1.IsWhole) (arg2 : Memref sig .tc .vmem S1024x4096 .bf16) (harg2 : arg2.IsWhole) (arg3 : Memref sig .tc .vmem S4096 .f32) (harg3 : arg3.IsWhole) (arg4 : Memref sig .tc .vmem S4096x1024 .bf16) (harg4 : arg4.IsWhole) (arg5 : Memref sig .tc .vmem S1024 .f32) (harg5 : arg5.IsWhole) (arg6 : Memref sig .tc .vmem S512x1024 .f32) (harg6 : arg6.IsWhole)
    (x0 : Vec F S512x1024 .bf16) (x1 : Vec F S1024x4096 .bf16) (x2 : Vec F S4096 .f32) (x3 : Vec F S4096x1024 .bf16) (x4 : Vec F S1024 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out2_5 x0 x1 x2 x3 x4)) -∗ K ⟨⟩))
      ⊢ wp frame (wpE (defs₀ (F := F)) Variants.none c none) E (cc2__ffn_kernel i arg1 harg1 arg2 harg2 arg3 harg3 arg4 harg4 arg5 harg5 arg6 harg6) K := by
  simp only [cc2__ffn_kernel_eq_skeleton]; unfold cc2__ffn_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; swap; isplitl [H1]; swap; isplitl [H2]; swap; isplitl [H3]; swap; isplitl [H4]
  all_goals (iexists _; isplitr; swap; iassumption; ipureintro)
  all_goals first | exact View.read_writes_eq_canon _ _ _ (View.cover_of_tiled _ S512x1024.size (by rfl)) | rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t)
      ∧ ∀ d, (dat2 V c).before 4 t d = iblk2 V c 4 t := by
  refine ⟨?_, ?_, ?_, ?_, ?_⟩ <;> exact Dat.before_in_eq_fetched _ _ rfl (fun _ => rfl) (fun _ _ _ => rfl) (fun _ => rfl) t

theorem body_obligation2 (c : Dev nD) : BodyObligation (dat2 (F := F) V c) (defs₀ (F := F)) Variants.none () Set.univ := fun t => by
  simp only [bigSep_W2, before2 V c t, after2_5]
  show _ ⊢ wp frame _ _ (bodyAt2 t) fun _ => iprop((dat2 V c).Φ t.castSucc ∗ (dat2 V c).owesAt () t.castSucc ∗ owns _ _ _ (iblk2 V c 0 t)
    ∗ owns _ _ _ (iblk2 V c 1 t) ∗ owns _ _ _ (iblk2 V c 2 t) ∗ owns _ _ _ (iblk2 V c 3 t) ∗ owns _ _ _ (iblk2 V c 4 t) ∗ _)
  iintro ⟨HΦ, Ho, ⟨%_, H0⟩, ⟨%_, H1⟩, ⟨%_, H2⟩, ⟨%_, H3⟩, ⟨%_, H4⟩, ⟨%_, H5⟩⟩
  iapply sound_kernel2
  iframe H0 H1 H2 H3 H4
  isplitl [H5]; · iexists _; iexact H5
  iintro H; iframe HΦ Ho; iexact H

end Cert.Kernel.Hand

end
-- ==== Proof.B.HostVals.lean ====
import proofs.«405582_j50302656971267_3_alg».proof.Proof.Gen.Kernel.Launch
import Idealize.ShloMosaic.Lib.StableHlo.Run

noncomputable section

namespace Cert.Kernel.Hand

open Cert.Kernel Cert.Kernel.Gen Idealize.ShloMosaic Idealize.ShloMosaic.TcCoe Idealize.SL.Sem Idealize.ShloMosaic.StableHlo

variable {F : FTy → Type} [FloatOps F]

variable (W : Valuation τ sig (Elt F))

/-- Values of the host-written buffers as functions of the contents `W` their stretch starts from. -/
theorem host0_c : StableHlo.after (hostOps0 (F := F)) W (Proc.devRef .tc main_c)
    = (fun i => lit0 (S2x18.rowMajor i) : (⟨S2x18, .i32⟩ : BufTy).Contents (Elt F)) := by
  after_results
  rfl

theorem host0_c_0 : StableHlo.after (hostOps0 (F := F)) W (Proc.devRef .tc main_c_0)
    = (fun i => lit1 (S2x18.rowMajor i) : (⟨S2x18, .i32⟩ : BufTy).Contents (Elt F)) := by
  after_results
  rfl

theorem host0_v0 : StableHlo.after (hostOps0 (F := F)) W (Proc.devRef .tc main_v0)
    = (truncf .bf16 (W (Proc.devRef .tc main_arg0)) bitsLt_bf16_f32 : (⟨S4096x1024, .bf16⟩ : BufTy).Contents (Elt F)) := by
  after_results

theorem host0_v2 : StableHlo.after (hostOps0 (F := F)) W (Proc.devRef .tc main_v2)
    = (truncf .bf16 (concatenate S1024x2048 1 [⟨S1024x1024, W (Proc.devRef .tc main_arg3)⟩, ⟨S1024x1024, W (Proc.devRef .tc main_arg5)⟩]
        concatenates_S1024x1024_S1024x1024_S1024x2048_d1) bitsLt_bf16_f32 : (⟨S1024x2048, .bf16⟩ : BufTy).Contents (Elt F)) := by
  after_results

theorem host0_v3 : StableHlo.after (hostOps0 (F := F)) W (Proc.devRef .tc main_v3)
    = (concatenate S2048 0 [⟨S1024, W (Proc.devRef .tc main_arg4)⟩, ⟨S1024, W (Proc.devRef .tc main_arg6)⟩]
        concatenates_S1024_S1024_S2048_d0 : (⟨S2048, .f32⟩ : BufTy).Contents (Elt F)) := by
  after_results

theorem host1_v5 : StableHlo.after (hostOps1 (F := F)) W (Proc.devRef .tc main_v5)
    = (truncf .bf16 (W (Proc.devRef .tc main_arg1)) bitsLt_bf16_f32 : (⟨S1024x1024, .bf16⟩ : BufTy).Contents (Elt F)) := by
  after_results

theorem host2_v7 : StableHlo.after (hostOps2 (F := F)) W (Proc.devRef .tc main_v7)
    = (truncf .bf16 (W (Proc.devRef .tc main_arg9)) bitsLt_bf16_f32 : (⟨S1024x4096, .bf16⟩ : BufTy).Contents (Elt F)) := by
  after_results

theorem host2_v8 : StableHlo.after (hostOps2 (F := F)) W (Proc.devRef .tc main_v8)
    = (truncf .bf16 (W (Proc.devRef .tc main_arg11)) bitsLt_bf16_f32 : (⟨S4096x1024, .bf16⟩ : BufTy).Contents (Elt F)) := by
  after_results

end Cert.Kernel.Hand

end
-- ==== Proof.B.Run.lean ====
import proofs.«405582_j50302656971267_3_alg».proof.Proof.B.R0
import proofs.«405582_j50302656971267_3_alg».proof.Proof.B.R1Dat
import proofs.«405582_j50302656971267_3_alg».proof.Proof.B.R2
import proofs.«405582_j50302656971267_3_alg».proof.Proof.B.HostVals
import proofs.«405582_j50302656971267_3_alg».proof.Proof.Gen.Kernel.Regions
import proofs.«405582_j50302656971267_3_alg».proof.Proof.LibRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen Cert.LibRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data of pipeline `p` when its region is entered from `V`. -/
def datOf : (p : Fin 3) → (V : (c : Dev nD) → (b : Ref sig .tc) → Buf (Elt F) ((c : Thread nD τ).loc b)) → (c : Dev nD) →
    Dat τ (Elt F) Unit ℕ (UR sig nD τ) ℕ (Pipeline.pin (pcfgs (F := F)) adm p) c
  | ⟨0, _⟩ => dat0
  | ⟨1, _⟩ => dat1
  | ⟨2, _⟩ => dat2
theorem datOf_A : ∀ (p : Fin 3) V (c : Dev nD) w, (datOf (F := F) p V c).A w = V c (Pipeline.arrRef (Pipeline.pin (pcfgs (F := F)) adm p).spec w)
  | ⟨0, _⟩ => A_eq0
  | ⟨1, _⟩ => A_eq1
  | ⟨2, _⟩ => A_eq2
/-- What region `p`, entered from `V`, leaves: its arrays at the proof data's last contents, every other buffer as found. -/
def Wreg (p : Fin 3) (V : Dev nD → Valuation τ sig (Elt F)) (c : Dev nD) : Valuation τ sig (Elt F) :=
  Pipeline.withArrays (Pipeline.pin (pcfgs (F := F)) adm p).spec c (V c) fun w => (datOf p (fun c b => V c b) c).arrAt w (Pipeline.pin (pcfgs (F := F)) adm p).N

section Leaves
variable (p : Fin 3) (lf : Pipeline.PLaunchFacts (nD := nD) (τ := τ) (pcfgs (F := F)) p) (V : Dev nD → Valuation τ sig (Elt F)) (c : Dev nD)
include lf in
theorem Wreg_arr (w : Fin (Pipeline.pin (pcfgs (F := F)) adm p).W) :
    Wreg p V c (Proc.devRef .tc (Pipeline.arrRef (Pipeline.pin (pcfgs (F := F)) adm p).spec w)) = (datOf p (fun c b => V c b) c).arrAt w (Pipeline.pin (pcfgs (F := F)) adm p).N := by
  unfold Wreg; exact Pipeline.withArrays_arr _ lf.win.arr_inj c _ _ w
theorem Wreg_of_ne (b : Ref sig .tc) (hb : ∀ w, Pipeline.arrRef (Pipeline.pin (pcfgs (F := F)) adm p).spec w ≠ b) :
    Wreg p V c (Proc.devRef .tc b) = V c (Proc.devRef .tc b) := by
  unfold Wreg; exact Pipeline.withArrays_of_ne _ c _ _ b hb
include lf in
/-- A region changes only its output windows' arrays: an input window's array, like any other buffer, is left as found. -/
theorem Wreg_keep (r : Ref sig .tc) (h : ∀ w, Pipeline.arrRef (Pipeline.pin (pcfgs (F := F)) adm p).spec w = r → ((Pipeline.pin (pcfgs (F := F)) adm p).win w).isOut = false) :
    Wreg p V c (Proc.devRef .tc r) = V c (Proc.devRef .tc r) := by
  by_cases hex : ∃ w, Pipeline.arrRef (Pipeline.pin (pcfgs (F := F)) adm p).spec w = r
  · obtain ⟨w, rfl⟩ := hex
    exact (Wreg_arr p lf V c w).trans (((datOf p _ c).arrAt_in w (h w rfl) _).trans (datOf_A p _ c w))
  · exact Wreg_of_ne p V c r fun w e => hex ⟨w, e⟩
end Leaves

abbrev W0 (m : (ℓ : Loc nD τ sig) → Buf (Elt F) ℓ) (_ρ : Dev nD → PrngReg) : Dev nD → Valuation τ sig (Elt F) :=
  fun c b => m ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays (cfg1 F).spec c (W3 m ρ c) fun w => (dat1 (V3 m ρ) c).arrAt w (cfg1 F).N
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- A buffer that no host operation so far writes and that is no earlier region's output still holds its launch contents. -/
theorem W2_launch (c : Dev nD) (r : Ref sig .tc) (h0 : r ∉ hostOps0_W)
    (k0 : ∀ w, Pipeline.arrRef spec0 w = r → (cfg0.win w).isOut = false) :
    W2 m ρ c (Proc.devRef .tc r) = m ((c : Thread nD τ).loc r) :=
  (Wreg_keep 0 launch0 (W1 m ρ) c r k0).trans (StableHlo.after_of_writes_sub hostOps0 _ hostOps0_writes h0)
theorem W3_launch (c : Dev nD) (r : Ref sig .tc) (h0 : r ∉ hostOps0_W) (h1 : r ∉ hostOps1_W)
    (k0 : ∀ w, Pipeline.arrRef spec0 w = r → (cfg0.win w).isOut = false) :
    W3 m ρ c (Proc.devRef .tc r) = m ((c : Thread nD τ).loc r) :=
  (W3_of m ρ c r h1).trans (W2_launch m ρ c r h0 k0)
theorem W4_launch (c : Dev nD) (r : Ref sig .tc) (h0 : r ∉ hostOps0_W) (h1 : r ∉ hostOps1_W)
    (k0 : ∀ w, Pipeline.arrRef spec0 w = r → (cfg0.win w).isOut = false)
    (k1 : ∀ w : Fin 9, Pipeline.arrRef spec1 w = r → (spec1 w).isOut = false) :
    W4 m ρ c (Proc.devRef .tc r) = m ((c : Thread nD τ).loc r) :=
  (Wreg_keep 1 launch1 (W3 m ρ) c r k1).trans (W3_launch m ρ c r h0 h1 k0)
theorem W5_launch (c : Dev nD) (r : Ref sig .tc) (h0 : r ∉ hostOps0_W) (h1 : r ∉ hostOps1_W) (h2 : r ∉ hostOps2_W)
    (k0 : ∀ w, Pipeline.arrRef spec0 w = r → (cfg0.win w).isOut = false)
    (k1 : ∀ w : Fin 9, Pipeline.arrRef spec1 w = r → (spec1 w).isOut = false) :
    W5 m ρ c (Proc.devRef .tc r) = m ((c : Thread nD τ).loc r) :=
  (W5_of m ρ c r h2).trans (W4_launch m ρ c r h0 h1 k0 k1)
theorem W6_launch (c : Dev nD) (r : Ref sig .tc) (h0 : r ∉ hostOps0_W) (h1 : r ∉ hostOps1_W) (h2 : r ∉ hostOps2_W)
    (k0 : ∀ w, Pipeline.arrRef spec0 w = r → (cfg0.win w).isOut = false)
    (k1 : ∀ w : Fin 9, Pipeline.arrRef spec1 w = r → (spec1 w).isOut = false)
    (k2 : ∀ w, Pipeline.arrRef spec2 w = r → (cfg2.win w).isOut = false) :
    W6 m ρ c (Proc.devRef .tc r) = m ((c : Thread nD τ).loc r) :=
  (Wreg_keep 2 launch2 (W5 m ρ) c r k2).trans (W5_launch m ρ c r h0 h1 h2 k0 k1)
theorem W3_eq_W1 (c : Dev nD) (r : Ref sig .tc) (h1 : r ∉ hostOps1_W)
    (k0 : ∀ w, Pipeline.arrRef spec0 w = r → (cfg0.win w).isOut = false) :
    W3 m ρ c (Proc.devRef .tc r) = W1 m ρ c (Proc.devRef .tc r) :=
  (W3_of m ρ c r h1).trans (Wreg_keep 0 launch0 (W1 m ρ) c r k0)

theorem W6_main_v9 (c : Dev nD) : W6 m ρ c (Proc.devRef .tc main_v9) = (dat2 (V5 m ρ) c).arrAt 5 cfg2.N :=
  Wreg_arr 2 launch2 (W5 m ρ) c 5
theorem V5_main_v6 (c : Dev nD) : V5 m ρ c main_v6 = (dat1 (V3 m ρ) c).arrAt 8 (cfg1 F).N :=
  (W5_of m ρ c main_v6 (by decide)).trans (Wreg_arr 1 launch1 (W3 m ρ) c 8)
theorem V3_main_v4_0 (c : Dev nD) : V3 m ρ c main_v4_0 = (dat0 (V1 m ρ) c).arrAt 3 cfg0.N :=
  (W3_of m ρ c main_v4_0 (by decide)).trans (Wreg_arr 0 launch0 (W1 m ρ) c 3)
theorem V3_main_v4_1 (c : Dev nD) : V3 m ρ c main_v4_1 = (dat0 (V1 m ρ) c).arrAt 4 cfg0.N :=
  (W3_of m ρ c main_v4_1 (by decide)).trans (Wreg_arr 0 launch0 (W1 m ρ) c 4)

/-- The contents each region is entered from. -/
def entry : Fin 3 → Dev nD → Valuation τ sig (Elt F)
  | ⟨0, _⟩ => W1 m ρ
  | ⟨1, _⟩ => W3 m ρ
  | ⟨2, _⟩ => W5 m ρ
abbrev pdats (p : Fin 3) (c : Dev nD) : Dat τ (Elt F) Unit ℕ (UR sig nD τ) ℕ (Pipeline.pin (pcfgs (F := F)) adm p) c :=
  datOf p (fun c b => entry m ρ p c b) c
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem pdats_plain : ∀ (p : Fin 3) (c : Dev nD), (∀ w, (pdats m ρ p c).q w = fullShare) ∧ (∀ t, (pdats m ρ p c).owed t = 0)
      ∧ ∀ t x, x ∈ (pdats m ρ p c).recorded t
  | ⟨0, _⟩, _ | ⟨1, _⟩, _ | ⟨2, _⟩, _ => ⟨fun _ => rfl, fun _ => rfl, fun _ _ => trivial⟩
/-- Region `p` of this program as an item: the general construction at this program's pipelines and proof data. -/
abbrev reg (p : Fin 3) (lf : Pipeline.PLaunchFacts (nD := nD) (τ := τ) (pcfgs (F := F)) p) :=
  regOf pcfgs adm (pdats m ρ) defs₀ 𝒱₀ L lv p lf (entry m ρ p) (pdats_plain m ρ p) (fun c => datOf_A p _ c)
abbrev reg0 := reg m ρ 0 launch0 (fun _ => funext fun k => k.elim0) (body_obligation0 (V1 m ρ))
  (fun c => ΦA_in spec0 c _)
  (fun c => ΦA_out spec0 c _ (by unfold tabs Pipeline.prefHeld; rw [show (Finset.univ : Finset (Fin 0)) = ∅ from rfl, BI.bigSep_empty]))
abbrev reg2 := reg m ρ 2 launch2 (fun _ => funext fun k => k.elim0) (body_obligation2 (V5 m ρ))
  (fun c => ΦA_in spec2 c _)
  (fun c => ΦA_out spec2 c _ (by unfold tabs Pipeline.prefHeld; rw [show (Finset.univ : Finset (Fin 0)) = ∅ from rfl, BI.bigSep_empty]))

/-- Region 1's two tables are constants of the first host stretch, untouched since. -/
theorem tables_V3 (c : Dev nD) :
    ((fun k => V3 m ρ c (pre1.ref k)) : pre1.Contents (Elt F)) = (adm (F := F) 1).1 := by
  funext k
  match k with
  | ⟨0, _⟩ =>
    exact ((W3_eq_W1 m ρ c main_c (by decide) (by decide)).trans (host0_c _)).trans (adm_tab0 (F := F)).symm
  | ⟨1, _⟩ =>
    exact ((W3_eq_W1 m ρ c main_c_0 (by decide) (by decide)).trans (host0_c_0 _)).trans (adm_tab1 (F := F)).symm
abbrev reg1 := reg m ρ 1 launch1 (tables_V3 m ρ) (body_obligation1 (V3 m ρ)) (hin1 (V3 m ρ)) (hout1 (V3 m ρ))

abbrev segs : List (Pipeline.Seg (pcfgs (F := F)) adm (pdats m ρ) () defs₀ 𝒱₀ L lv) :=
  [ .host (hseg pcfgs defs₀ 𝒱₀ L lv hostOps0 hostOps0_sub hostOps0_fresh (W0 m ρ)),
    .region (reg0 m ρ),
    .host (hseg pcfgs defs₀ 𝒱₀ L lv hostOps1 hostOps1_sub hostOps1_fresh (W2 m ρ)),
    .region (reg1 m ρ),
    .host (hseg pcfgs defs₀ 𝒱₀ L lv hostOps2 hostOps2_sub hostOps2_fresh (W4 m ρ)),
    .region (reg2 m ρ) ]
theorem main_run (c : Dev nD) : main (F := F) c = Pipeline.Seg.run (segs m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  run_segs pcfgs adm (pdats m ρ) defs₀ 𝒱₀ L lv (cellOf_inj adm) m ρ main (segs m ρ) (main_run m ρ)
    (by simp only [segs, Pipeline.Seg.pipes_host, Pipeline.Seg.pipes_region, Pipeline.Seg.pipes_nil]; decide) (fun _ _ => rfl) (W6 m ρ)
    ⟨fun _ => .rfl, fun _ => .rfl, fun _ => .rfl, fun _ => .rfl, fun _ => .rfl, fun _ => .rfl, fun _ => sep_assoc'⟩

end Cert.Kernel.Hand

end
-- ==== Proof.B.Frame.lean ====
import proofs.«405582_j50302656971267_3_alg».proof.Proof.B.Run

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- In the memory `s` each of the thirteen argument arrays holds what it held in `m`. -/
abbrev ArgsKept (m s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)

/-- The result array ends at what the last region leaves; every argument, which no host operation writes and no region gives out, as launched. -/
theorem run_res : θ_run defs (onTc (τ := τ) (main (F := F))) ⟨m, fun _ => 0, ρ⟩ (fun r => ∀ c : Dev nD,
      r.2.mem ((c.tc : Thread nD τ).loc main_v9) = W6 m ρ c (Proc.devRef .tc main_v9) ∧ ArgsKept m r.2.mem c) :=
  (θ_run defs _ _).mono (fun r h c => by
    refine ⟨h c _ (mem_uc main_v9 (by decide)), ?_⟩
    split_ands <;> exact (h c _ (mem_uc _ (by decide))).trans
      (W6_launch m ρ c _ (by decide) (by decide) (by decide) (by decide) (by decide) (by decide)))
    (run_all m ρ)

theorem frame : θ_run defs (onTc (τ := τ) (main (F := F))) ⟨m, fun _ => 0, ρ⟩ (fun r => ∀ c : Dev nD, ArgsKept m r.2.mem c) :=
  (θ_run defs _ _).mono (fun _ h c => (h c).2) (run_res m ρ)

end Cert.Kernel.Hand

end
-- ==== Proof.Spec.lean ====
import Idealize.ShloMosaic.PureOps.Ideal
import Idealize.ShloMosaic.Lib.ValueIdx

noncomputable section

namespace Cert.Spec

open Idealize.ShloMosaic

abbrev Mat (n d : Nat) := Fin n → Fin d → EReal

abbrev Row (d : Nat) := Fin d → EReal

abbrev cur2 {n0 n1 : Nat} (A : (⟨2, ![n0, n1]⟩ : Shape).Idx → EReal) : Mat n0 n1 := fun i j => A (ValueIdx.ix2 i j)

abbrev cur1 {n : Nat} (A : (⟨1, ![n]⟩ : Shape).Idx → EReal) : Row n := fun i => A (ValueIdx.ix1 i)

abbrev arr2 {n0 n1 : Nat} (M : Mat n0 n1) : (⟨2, ![n0, n1]⟩ : Shape).Idx → EReal := fun idx => M (idx 0) (idx 1)

theorem arr2_cur2 {n0 n1 : Nat} (A : (⟨2, ![n0, n1]⟩ : Shape).Idx → EReal) : arr2 (cur2 A) = A :=
  funext fun idx => congrArg A (ValueIdx.eq_ix2 idx).symm

def proj {n d e : Nat} (X : Mat n d) (W : Mat d e) (b : Row e) : Mat n e :=
  fun i j => (∑ k, X i k * W k j) + b j

abbrev scale : EReal := Ideal.ofBits .f32 0x3D000000#32

def logit {n d : Nat} (Q K : Mat n d) : Mat n n :=
  fun i j => if j.val ≤ i.val then (∑ k, Q i k * K j k) * scale else ⊥

def rowMax {n : Nat} (S : Mat n n) (i : Fin n) : EReal := Finset.univ.sup (S i)

def expw {n : Nat} (S : Mat n n) : Mat n n := fun i j => Ideal.exp (S i j - rowMax S i)

def softmax {n : Nat} (S : Mat n n) : Mat n n :=
  fun i j => Ideal.div (expw S i j) (∑ j', expw S i j')

def attnRes {n d : Nat} (Q K V E : Mat n d) : Mat n d :=
  fun i c => (∑ j, softmax (logit Q K) i j * V j c) + E i c

abbrev len : EReal := Ideal.ofBits .f32 0x44800000#32
abbrev eps : EReal := Ideal.ofBits .f32 0x3727C5AC#32

def mean {n d : Nat} (X : Mat n d) (i : Fin n) : EReal := Ideal.div (∑ c, X i c) len

def var {n d : Nat} (X : Mat n d) (i : Fin n) : EReal :=
  Ideal.div (∑ c, (X i c - mean X i) * (X i c - mean X i)) len

def lnorm {n d : Nat} (X : Mat n d) (γ β : Row d) : Mat n d :=
  fun i c => Ideal.div (X i c - mean X i) (Ideal.sqrt (var X i + eps)) * γ c + β c

def ffn {n d f : Nat} (Y : Mat n d) (W1 : Mat d f) (b1 : Row f) (W2 : Mat f d) (b2 : Row d) : Mat n d :=
  proj (fun i h => max (proj Y W1 b1 i h) 0) W2 b2

def block {n d : Nat} (E : Mat n d) (Wq : Mat d d) (bq : Row d) (K V : Mat n d) (γ β : Row d) : Mat n d :=
  lnorm (attnRes (proj E Wq bq) K V E) γ β

def whole {n d f : Nat} (E : Mat n d) (Wq : Mat d d) (bq : Row d) (Wk : Mat d d) (bk : Row d) (Wv : Mat d d) (bv : Row d)
    (γ β : Row d) (W1 : Mat d f) (b1 : Row f) (W2 : Mat f d) (b2 : Row d) : Mat n d :=
  ffn (block E Wq bq (proj E Wk bk) (proj E Wv bv) γ β) W1 b1 W2 b2

end Cert.Spec

end
-- ==== Proof.MatmulAt.lean ====
import Idealize.ShloMosaic.Lib.StackMember
import Idealize.ShloMosaic.Lib.ValueIdx
import Idealize.ShloMosaic.PureOps.Ideal.Laws
import Mathlib.Tactic.FinCases

namespace Cert.KernelIdeal.Val

open Idealize.ShloMosaic Idealize.ShloMosaic.ValueIdx
open scoped BigOperators

theorem hz2 : (![0, 0] : Fin 2 → Nat) = fun _ => 0 := funext fun a => by fin_cases a <;> rfl
theorem hz1 : (![0] : Fin 1 → Nat) = fun _ => 0 := funext fun a => by fin_cases a; rfl

/-- A plain `m × k` by `k × n` product added onto zero is, at `(r, c)`, the sum over the shared axis. -/
theorem matmul_at {m k n : ℕ} {φ₁ φ₂ : FTy} (d : DotDims ⟨2, ![m, k]⟩ ⟨2, ![k, n]⟩ ⟨2, ![m, n]⟩) (hd : d = .plain m k n)
    (l : FVec Ideal ⟨2, ![m, k]⟩ φ₁) (t : FVec Ideal ⟨2, ![k, n]⟩ φ₂) (r : Fin m) (c : Fin n) :
    matmul d none l t (constant (F := Ideal) ⟨2, ![m, n]⟩ .f32 0x00000000#32) (ix2 r c)
      = ∑ j : Fin k, l (ix2 r j) * t (ix2 j c) := by
  subst hd
  exact (Ideal.matmul_constant_zero_apply _ none l t _).trans
    ((Ideal.dotGeneral_apply _ none _ l t _).symm.trans (StackMember.dotGeneral_plain_apply none l t r c))

/-- Eight row blocks of 512 rows cover 4096 rows: row `r` lies in block `r / 512`. -/
theorem row_cover {N : ℕ} (hN : N = 8) (idx : Fin N → Fin 2 → ℕ) (h : ∀ t, idx t 0 = t.val ∧ idx t 1 = 0)
    (i : (⟨2, ![4096, 1024]⟩ : Shape).Idx) :
    ∃ t : Fin N, ∀ a : Fin 2, idx t a * (⟨2, ![512, 1024]⟩ : Shape).size a ≤ (i a).val
      ∧ (i a).val < idx t a * (⟨2, ![512, 1024]⟩ : Shape).size a + (⟨2, ![512, 1024]⟩ : Shape).size a := by
  subst hN
  have h0 : (i 0).val < 4096 := (i 0).isLt
  have h1 : (i 1).val < 1024 := (i 1).isLt
  obtain ⟨e0, e1⟩ := h ⟨(i 0).val / 512, by omega⟩
  refine ⟨⟨(i 0).val / 512, by omega⟩, fun a => ?_⟩
  match a with
  | ⟨0, _⟩ =>
    show idx _ 0 * 512 ≤ (i 0).val ∧ (i 0).val < idx _ 0 * 512 + 512
    rw [e0]; show (i 0).val / 512 * 512 ≤ (i 0).val ∧ (i 0).val < (i 0).val / 512 * 512 + 512; omega
  | ⟨1, _⟩ =>
    show idx _ 1 * 1024 ≤ (i 1).val ∧ (i 1).val < idx _ 1 * 1024 + 1024
    rw [e1]; omega

end Cert.KernelIdeal.Val
-- ==== Proof.ValKV.lean ====
import proofs.«405582_j50302656971267_3_alg».proof.Proof.R0
import proofs.«405582_j50302656971267_3_alg».proof.Proof.Spec
import proofs.«405582_j50302656971267_3_alg».proof.Proof.MatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem pay1_apply (x0 : Vec Ideal S512x1024 .bf16) (x1 : Vec Ideal S1024x2048 .bf16) (x2 : Vec Ideal S2048 .f32)
    (p : Fin 512) (r : Fin 2048) :
    k0_pay1 x0 x1 x2 (ValueIdx.ix2 p r) = (∑ k : Fin 1024, x0 (ValueIdx.ix2 p k) * x1 (ValueIdx.ix2 k r)) + x2 (ValueIdx.ix1 r) := by
  unfold k0_pay1
  simp only [shapeCast_self]
  rw [addf_apply, matmul_at dot_S512x1024_S1024x2048_S512x2048_1_0_0_1_n_n rfl, broadcastTo_1b_ab_apply, shapeCast_a_1a_apply]

theorem pay2_apply (x0 : Vec Ideal S512x1024 .bf16) (x1 : Vec Ideal S1024x2048 .bf16) (x2 : Vec Ideal S2048 .f32)
    (p : Fin 512) (q : Fin 1024) :
    k0_pay2 x0 x1 x2 (ValueIdx.ix2 p q) = k0_pay1 x0 x1 x2 (ValueIdx.ix2 p (Fin.castLE (by decide) q)) := by
  unfold k0_pay2
  rw [truncf_apply]
  exact slice2_axis1_apply 0 _ slices_S512x2048_o0_0_S512x1024 p q _ (Nat.zero_add _).symm

theorem pay3_apply (x0 : Vec Ideal S512x1024 .bf16) (x1 : Vec Ideal S1024x2048 .bf16) (x2 : Vec Ideal S2048 .f32)
    (p : Fin 512) (q : Fin 1024) :
    k0_pay3 x0 x1 x2 (ValueIdx.ix2 p q) = k0_pay1 x0 x1 x2 (ValueIdx.ix2 p ⟨1024 + q.val, by omega⟩) := by
  unfold k0_pay3
  rw [truncf_apply]
  exact slice2_axis1_apply 1024 _ slices_S512x2048_o0_1024_S512x1024 p q _ rfl

variable (V : (c : Dev nD) → (b : Ref sig .tc) → Buf (Elt Ideal) ((c : Thread nD τ).loc b))

abbrev arrX (c : Dev nD) : S4096x1024.Idx → EReal := V c main_v0
abbrev arrW (c : Dev nD) : S1024x2048.Idx → EReal := V c main_v2
abbrev arrB (c : Dev nD) : S2048.Idx → EReal := V c main_v3

abbrev keysM (c : Dev nD) : Spec.Mat 4096 1024 :=
  Spec.proj (Spec.cur2 (arrX V c)) (fun k j => Spec.cur2 (arrW V c) k (Fin.castLE (by decide) j))
    (fun j => Spec.cur1 (arrB V c) (Fin.castLE (by decide) j))

abbrev valsM (c : Dev nD) : Spec.Mat 4096 1024 :=
  Spec.proj (Spec.cur2 (arrX V c)) (fun k j => Spec.cur2 (arrW V c) k ⟨1024 + j.val, by omega⟩)
    (fun j => Spec.cur1 (arrB V c) ⟨1024 + j.val, by omega⟩)

theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ win0_2.index t (0 : Fin 1) = 0
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- Read at columns `f q`, rows `512 t …` of `X W + b` are the projection with those columns. -/
theorem rows_eq (c : Dev nD) (t : Fin cfg0.N) (f : Fin 1024 → Fin 2048)
    (P : Vec Ideal S512x1024 .bf16 → Vec Ideal S1024x2048 .bf16 → Vec Ideal S2048 .f32 → Vec Ideal S512x1024 .bf16)
    (hP : ∀ x0 x1 x2 p q, P x0 x1 x2 (ValueIdx.ix2 p q) = k0_pay1 x0 x1 x2 (ValueIdx.ix2 p (f q)))
    (idx : Fin 2 → ℕ) (hidx : idx 0 = t.val ∧ idx 1 = 0)
    (j : S512x1024.Idx) (i : S4096x1024.Idx) (hi : ∀ a, (i a).val = idx a * S512x1024.size a + 1 * (j a).val) :
    View.canon [⟨r0_x, P (View.ld (iblk0 V c 0 t) r0_x) (View.ld (iblk0 V c 1 t) r0_w) (View.ld (iblk0 V c 2 t) r0_b)⟩] j
      = Spec.arr2 (Spec.proj (Spec.cur2 (arrX V c)) (fun k q => Spec.cur2 (arrW V c) k (f q)) (fun q => Spec.cur1 (arrB V c) (f q))) i := by
  obtain ⟨⟨f0, f1⟩, ⟨f2, f3⟩, f4, -⟩ := idx_facts0 t
  obtain ⟨p, q, rfl⟩ : ∃ (p : Fin 512) (q : Fin 1024), j = ValueIdx.ix2 p q := ⟨j 0, j 1, ValueIdx.eq_ix2 j⟩
  have ht : t.val < 8 := by have h := t.isLt; have hN : cfg0.N = 8 := N_0; omega
  have hi0 : (i 0).val = idx 0 * 512 + 1 * p.val := hi 0
  have hi1 : (i 1).val = idx 1 * 1024 + 1 * q.val := hi 1
  have ei : i = ValueIdx.ix2 (⟨512 * t.val + p.val, by omega⟩ : Fin 4096) q :=
    funext fun a => Fin.ext (match a with | ⟨0, _⟩ => by show (i 0).val = 512 * t.val + p.val; omega | ⟨1, _⟩ => by show (i 1).val = q.val; omega)
  rw [View.canon_unit_zero hz2, View.ld_unit_zero (S := S512x1024) hz2, View.ld_unit_zero (S := S1024x2048) hz2,
    View.ld_unit_zero (S := S2048) hz1, ei, hP, pay1_apply]
  refine congrArg₂ (· + ·) (Finset.sum_congr rfl fun k _ => congrArg₂ (· * ·) ?_ ?_) ?_ <;>
    (unfold iblk0; rw [View.read_apply]; refine congrArg (V c _) (funext fun a => Fin.ext ?_))
  · match a with
    | ⟨0, _⟩ => show win0_0.index t (0 : Fin 2) * 512 + 1 * p.val = 512 * t.val + p.val; rw [f0]; omega
    | ⟨1, _⟩ => show win0_0.index t (1 : Fin 2) * 1024 + 1 * k.val = k.val; rw [f1]; omega
  · match a with
    | ⟨0, _⟩ => show win0_1.index t (0 : Fin 2) * 1024 + 1 * k.val = k.val; rw [f2]; omega
    | ⟨1, _⟩ => show win0_1.index t (1 : Fin 2) * 2048 + 1 * (f q).val = (f q).val; rw [f3]; omega
  · match a with
    | ⟨0, _⟩ => show win0_2.index t (0 : Fin 1) * 2048 + 1 * (f q).val = (f q).val; rw [f4]; omega

theorem flushed0_3_eq (c : Dev nD) (t : Fin cfg0.N) :
    (dat0 V c).flushed 3 t = ((cfg0.win 3).blk t).view.read (Elt Ideal) (Spec.arr2 (keysM V c)) := by
  show (cfg0.win 3).cut (grid0.coords t) ((dat0 V c).after 3 t) = _
  rw [after0_3]
  unfold out0_3
  exact funext fun j => rows_eq V c t _ k0_pay2 pay2_apply (win0_3.index t) (idx_facts0 t).2.2.2.1 j _ fun _ => rfl

theorem flushed0_4_eq (c : Dev nD) (t : Fin cfg0.N) :
    (dat0 V c).flushed 4 t = ((cfg0.win 4).blk t).view.read (Elt Ideal) (Spec.arr2 (valsM V c)) := by
  show (cfg0.win 4).cut (grid0.coords t) ((dat0 V c).after 4 t) = _
  rw [after0_4]
  unfold out0_4
  exact funext fun j => rows_eq V c t _ k0_pay3 pay3_apply (win0_4.index t) (idx_facts0 t).2.2.2.2 j _ fun _ => rfl

theorem covered0_3 (i : S4096x1024.Idx) : ∃ t : Fin cfg0.N, (cfg0.win 3).flush t = true ∧ i ∈ ((cfg0.win 3).blk t).view.set := by
  obtain ⟨t, h⟩ := row_cover N_0 win0_3.index (fun t => (idx_facts0 t).2.2.2.1) i
  refine ⟨t, flush0_3 t, ?_⟩
  show i ∈ ((View.whole main_v4_0).slice (win0_3.rect t)).set
  rw [View.set_slice_whole, Rect.mem_set_unit]
  exact h

theorem covered0_4 (i : S4096x1024.Idx) : ∃ t : Fin cfg0.N, (cfg0.win 4).flush t = true ∧ i ∈ ((cfg0.win 4).blk t).view.set := by
  obtain ⟨t, h⟩ := row_cover N_0 win0_4.index (fun t => (idx_facts0 t).2.2.2.2) i
  refine ⟨t, flush0_4 t, ?_⟩
  show i ∈ ((View.whole main_v4_1).slice (win0_4.rect t)).set
  rw [View.set_slice_whole, Rect.mem_set_unit]
  exact h

theorem arrAt0_3 (c : Dev nD) : (dat0 V c).arrAt 3 cfg0.N = Spec.arr2 (keysM V c) :=
  (dat0 V c).arrAt_eq_of_cover 3 (Spec.arr2 (keysM V c)) (fun t _ => flushed0_3_eq V c t) covered0_3

theorem arrAt0_4 (c : Dev nD) : (dat0 V c).arrAt 4 cfg0.N = Spec.arr2 (valsM V c) :=
  (dat0 V c).arrAt_eq_of_cover 4 (Spec.arr2 (valsM V c)) (fun t _ => flushed0_4_eq V c t) covered0_4

end Cert.KernelIdeal.Val

end
-- ==== Proof.ValFFN.lean ====
import proofs.«405582_j50302656971267_3_alg».proof.Proof.R2
import proofs.«405582_j50302656971267_3_alg».proof.Proof.Spec
import proofs.«405582_j50302656971267_3_alg».proof.Proof.MatmulAt
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- A sum over `Fin 4096` is the sum of its four consecutive blocks of 1024, added in order onto zero. -/
theorem sum_chunks (f : Fin 4096 → EReal) :
    ∑ h, f h = (((0 + ∑ k : Fin 1024, f ⟨0 + k.val, by omega⟩) + ∑ k : Fin 1024, f ⟨1024 + k.val, by omega⟩)
      + ∑ k : Fin 1024, f ⟨2048 + k.val, by omega⟩) + ∑ k : Fin 1024, f ⟨3072 + k.val, by omega⟩ := by
  rw [zero_add]
  have e1 := Fin.sum_univ_add (M := EReal) (a := 3072) (b := 1024) f
  have e2 := Fin.sum_univ_add (M := EReal) (a := 2048) (b := 1024) fun i => f (Fin.castAdd 1024 i)
  have e3 := Fin.sum_univ_add (M := EReal) (a := 1024) (b := 1024) fun i => f (Fin.castAdd 1024 (Fin.castAdd 1024 i))
  rw [e1, e2, e3]
  refine congrArg₂ (· + ·) (congrArg₂ (· + ·) (congrArg₂ (· + ·) ?_ ?_) ?_) ?_ <;>
    exact Finset.sum_congr rfl fun k _ => congrArg f (Fin.ext (by simp; try omega))

def chunk (xb : FVec Ideal S512x1024 .bf16) (w1 : FVec Ideal S1024x1024 .bf16) (b1 : FVec Ideal S1024 .f32) (w2 : FVec Ideal S1024x1024 .bf16) :
    FVec Ideal S512x1024 .f32 :=
  matmul dot_S512x1024_S1024x1024_S512x1024_1_0_0_1_n_n none
    (truncf .bf16 (maximumf
      (addf (matmul dot_S512x1024_S1024x1024_S512x1024_1_0_0_1_n_n none xb (shapeCast S1024x1024 w1 shapeCasts_S1024x1024_S1024x1024) (constant (F := Ideal) S512x1024 .f32 0x00000000#32))
        (broadcastTo S512x1024 (shapeCast S1x1024 b1 shapeCasts_S1024_S1x1024) broadcasts_S1x1024_S512x1024))
      (broadcast S512x1024 (Scalar.ofBits (F := Ideal) .f32 0x00000000#32))) bitsLt_bf16_f32)
    (shapeCast S1024x1024 w2 shapeCasts_S1024x1024_S1024x1024) (constant (F := Ideal) S512x1024 .f32 0x00000000#32)

theorem chunk_apply (xb : FVec Ideal S512x1024 .bf16) (w1 : FVec Ideal S1024x1024 .bf16) (b1 : FVec Ideal S1024 .f32) (w2 : FVec Ideal S1024x1024 .bf16)
    (p : Fin 512) (q : Fin 1024) :
    chunk xb w1 b1 w2 (ValueIdx.ix2 p q)
      = ∑ k : Fin 1024, max ((∑ d : Fin 1024, xb (ValueIdx.ix2 p d) * w1 (ValueIdx.ix2 d k)) + b1 (ValueIdx.ix1 k)) 0 * w2 (ValueIdx.ix2 k q) := by
  unfold chunk
  rw [matmul_at dot_S512x1024_S1024x1024_S512x1024_1_0_0_1_n_n rfl]
  refine Finset.sum_congr rfl fun k _ => ?_
  rw [shapeCast_self, shapeCast_self, truncf_apply, maximumf_apply, addf_apply, matmul_at dot_S512x1024_S1024x1024_S512x1024_1_0_0_1_n_n rfl,
    broadcastTo_1b_ab_apply, shapeCast_a_1a_apply, broadcast_apply]
  exact congrArg (max _ · * _) Ideal.ofBits_zero_f32

/-- What hidden units `o … o + 1023` add to entry `q` of the output row of an input row `x`. -/
def hid (x : Spec.Row 1024) (W1 : Spec.Mat 1024 4096) (b1 : Spec.Row 4096) (W2 : Spec.Mat 4096 1024) (o : ℕ) (ho : o + 1024 ≤ 4096)
    (q : Fin 1024) : EReal :=
  ∑ k : Fin 1024, max ((∑ d, x d * W1 d ⟨o + k.val, by omega⟩) + b1 ⟨o + k.val, by omega⟩) 0 * W2 ⟨o + k.val, by omega⟩ q

/-- The four chunks' contributions added in order onto zero. -/
def hid4 (x : Spec.Row 1024) (W1 : Spec.Mat 1024 4096) (b1 : Spec.Row 4096) (W2 : Spec.Mat 4096 1024) (q : Fin 1024) : EReal :=
  (((0 + hid x W1 b1 W2 0 (by omega) q) + hid x W1 b1 W2 1024 (by omega) q) + hid x W1 b1 W2 2048 (by omega) q)
    + hid x W1 b1 W2 3072 (by omega) q

/-- With weights and bias taken at offset `o` of the whole arrays, a chunk is what hidden units `o … o + 1023` add. -/
theorem chunk_ld_apply (xb : FVec Ideal S512x1024 .bf16) (x1 : Vec Ideal S1024x4096 .bf16) (x2 : Vec Ideal S4096 .f32) (x3 : Vec Ideal S4096x1024 .bf16)
    (o : Nat) (inb1 : ∀ a, (![0, o] : Fin 2 → Nat) a + S1024x1024.size a ≤ S1024x4096.size a)
    (inb2 : ∀ a, (![o] : Fin 1 → Nat) a + S1024.size a ≤ S4096.size a)
    (inb3 : ∀ a, (![o, 0] : Fin 2 → Nat) a + S1024x1024.size a ≤ S4096x1024.size a) (ho : o + 1024 ≤ 4096) (p : Fin 512) (q : Fin 1024) :
    chunk xb (View.ld x1 (Rect.unit (s := S1024x4096) ![0, o] S1024x1024.size inb1)) (View.ld x2 (Rect.unit (s := S4096) ![o] S1024.size inb2))
        (View.ld x3 (Rect.unit (s := S4096x1024) ![o, 0] S1024x1024.size inb3)) (ValueIdx.ix2 p q)
      = hid (Spec.cur2 xb p) (Spec.cur2 x1) (Spec.cur1 x2) (Spec.cur2 x3) o ho q := by
  rw [chunk_apply]
  refine Finset.sum_congr rfl fun k _ => congrArg₂ (fun s w => max s 0 * w) (congrArg₂ (· + ·) (Finset.sum_congr rfl fun d _ => congrArg (_ * ·) ?_) ?_) ?_
  · refine congrArg x1 (funext fun a => Fin.ext ?_)
    match a with
    | ⟨0, _⟩ => show 0 + 1 * d.val = d.val; omega
    | ⟨1, _⟩ => show o + 1 * k.val = o + k.val; omega
  · refine congrArg x2 (funext fun a => Fin.ext ?_)
    match a with
    | ⟨0, _⟩ => show o + 1 * k.val = o + k.val; omega
  · refine congrArg x3 (funext fun a => Fin.ext ?_)
    match a with
    | ⟨0, _⟩ => show o + 1 * k.val = o + k.val; omega
    | ⟨1, _⟩ => show 0 + 1 * q.val = q.val; omega

/-- The body's result at `(p, q)`: the four chunks of hidden units added in order onto zero, plus the second bias. -/
theorem out2_5_apply (x0 : Vec Ideal S512x1024 .bf16) (x1 : Vec Ideal S1024x4096 .bf16) (x2 : Vec Ideal S4096 .f32) (x3 : Vec Ideal S4096x1024 .bf16) (x4 : Vec Ideal S1024 .f32)
    (p : Fin 512) (q : Fin 1024) :
    out2_5 x0 x1 x2 x3 x4 (ValueIdx.ix2 p q) =
      hid4 (Spec.cur2 x0 p) (Spec.cur2 x1) (Spec.cur1 x2) (Spec.cur2 x3) q + x4 (ValueIdx.ix1 q) := by
  unfold hid4
  have hx : k2_pay2 (View.ld x0 r2_x) = x0 := by
    unfold k2_pay2
    exact (shapeCast_self _ _).trans (View.ld_unit_zero hz2 _ x0)
  have hb : View.ld x4 r2_b2 = x4 := View.ld_unit_zero hz1 _ x4
  unfold out2_5
  rw [View.canon_unit_zero hz2]
  show ((((Ideal.ofBits .f32 0x00000000#32 + chunk (k2_pay2 (View.ld x0 r2_x)) (View.ld x1 r2_w1_0) (View.ld x2 r2_b1_0) (View.ld x3 r2_w2_0) (ValueIdx.ix2 p q))
      + chunk (k2_pay2 (View.ld x0 r2_x)) (View.ld x1 r2_w1_1) (View.ld x2 r2_b1_1) (View.ld x3 r2_w2_1) (ValueIdx.ix2 p q))
      + chunk (k2_pay2 (View.ld x0 r2_x)) (View.ld x1 r2_w1_2) (View.ld x2 r2_b1_2) (View.ld x3 r2_w2_2) (ValueIdx.ix2 p q))
      + chunk (k2_pay2 (View.ld x0 r2_x)) (View.ld x1 r2_w1_3) (View.ld x2 r2_b1_3) (View.ld x3 r2_w2_3) (ValueIdx.ix2 p q))
      + broadcastTo S512x1024 (shapeCast S1x1024 (View.ld x4 r2_b2) shapeCasts_S1024_S1x1024) broadcasts_S1x1024_S512x1024 (ValueIdx.ix2 p q) = _
  rw [hx, hb, chunk_ld_apply x0 x1 x2 x3 0 _ _ _ (by omega) p q, chunk_ld_apply x0 x1 x2 x3 1024 _ _ _ (by omega) p q,
    chunk_ld_apply x0 x1 x2 x3 2048 _ _ _ (by omega) p q, chunk_ld_apply x0 x1 x2 x3 3072 _ _ _ (by omega) p q,
    broadcastTo_1b_ab_apply, shapeCast_a_1a_apply, Ideal.ofBits_zero_f32]

/-- The perceptron at `(i, j)` with its hidden sum split into the four blocks of 1024. -/
theorem ffn_chunks (Y : Spec.Mat 4096 1024) (W1 : Spec.Mat 1024 4096) (b1 : Spec.Row 4096) (W2 : Spec.Mat 4096 1024) (b2 : Spec.Row 1024)
    (i : Fin 4096) (j : Fin 1024) :
    Spec.ffn Y W1 b1 W2 b2 i j = hid4 (Y i) W1 b1 W2 j + b2 j := by
  unfold Spec.ffn Spec.proj
  exact congrArg (· + b2 j) (sum_chunks _)

abbrev aX (c : Dev nD) : S4096x1024.Idx → EReal := V c main_v6
abbrev aW1 (c : Dev nD) : S1024x4096.Idx → EReal := V c main_v7
abbrev aB1 (c : Dev nD) : S4096.Idx → EReal := V c main_arg10
abbrev aW2 (c : Dev nD) : S4096x1024.Idx → EReal := V c main_v8
abbrev aB2 (c : Dev nD) : S1024.Idx → EReal := V c main_arg12

abbrev G (c : Dev nD) : S4096x1024.Idx → EReal :=
  Spec.arr2 (Spec.ffn (Spec.cur2 (aX V c)) (Spec.cur2 (aW1 V c)) (Spec.cur1 (aB1 V c)) (Spec.cur2 (aW2 V c)) (Spec.cur1 (aB2 V c)))

theorem idx_facts : ∀ t : Fin cfg2.N, (win2_0.index t (0 : Fin 2) = t.val ∧ win2_0.index t (1 : Fin 2) = 0)
    ∧ win2_1.index t (0 : Fin 2) = 0 ∧ win2_1.index t (1 : Fin 2) = 0 ∧ win2_2.index t (0 : Fin 1) = 0
    ∧ win2_3.index t (0 : Fin 2) = 0 ∧ win2_3.index t (1 : Fin 2) = 0 ∧ win2_4.index t (0 : Fin 1) = 0
    ∧ win2_5.index t (0 : Fin 2) = t.val ∧ win2_5.index t (1 : Fin 2) = 0 :=
  (by decide +kernel : ∀ t : Fin grid2.N, _)

/-- The activations' block at point `t` is row block `t`; every other input block is its whole array. -/
theorem blks_eq (c : Dev nD) (t : Fin cfg2.N) (ht : t.val < 8) :
    (∀ (p : Fin 512) (d : Fin 1024), (iblk2 V c 0 t : Vec Ideal S512x1024 .bf16) (ValueIdx.ix2 p d) = aX V c (ValueIdx.ix2 ⟨512 * t.val + p.val, by omega⟩ d))
    ∧ (iblk2 V c 1 t : Vec Ideal S1024x4096 .bf16) = aW1 V c ∧ (iblk2 V c 2 t : Vec Ideal S4096 .f32) = aB1 V c
    ∧ (iblk2 V c 3 t : Vec Ideal S4096x1024 .bf16) = aW2 V c ∧ (iblk2 V c 4 t : Vec Ideal S1024 .f32) = aB2 V c := by
  obtain ⟨⟨e0, e1⟩, e2, e3, e4, e5, e6, e7, -⟩ := idx_facts t
  refine ⟨fun p d => ?_, funext fun j => ?_, funext fun j => ?_, funext fun j => ?_, funext fun j => ?_⟩ <;>
    (unfold iblk2; rw [View.read_apply]; refine congrArg (V c _) (funext fun a => Fin.ext ?_))
  · match a with
    | ⟨0, _⟩ => show win2_0.index t (0 : Fin 2) * 512 + 1 * p.val = 512 * t.val + p.val; omega
    | ⟨1, _⟩ => show win2_0.index t (1 : Fin 2) * 1024 + 1 * d.val = d.val; omega
  · match a with
    | ⟨0, _⟩ => show win2_1.index t (0 : Fin 2) * 1024 + 1 * (j 0).val = (j 0).val; omega
    | ⟨1, _⟩ => show win2_1.index t (1 : Fin 2) * 4096 + 1 * (j 1).val = (j 1).val; omega
  · match a with
    | ⟨0, _⟩ => show win2_2.index t (0 : Fin 1) * 4096 + 1 * (j 0).val = (j 0).val; omega
  · match a with
    | ⟨0, _⟩ => show win2_3.index t (0 : Fin 2) * 4096 + 1 * (j 0).val = (j 0).val; omega
    | ⟨1, _⟩ => show win2_3.index t (1 : Fin 2) * 1024 + 1 * (j 1).val = (j 1).val; omega
  · match a with
    | ⟨0, _⟩ => show win2_4.index t (0 : Fin 1) * 1024 + 1 * (j 0).val = (j 0).val; omega

/-- At point `t` the result is row block `t` of the perceptron of the whole arrays. -/
theorem flushed_eq (c : Dev nD) (t : Fin cfg2.N) :
    (dat2 V c).flushed 5 t = ((cfg2.win 5).blk t).view.read (Elt Ideal) (G V c) := by
  have ht : t.val < 8 := by have := t.isLt; have hN : cfg2.N = 8 := N_2; omega
  obtain ⟨-, -, -, -, -, -, -, e0, e1⟩ := idx_facts t
  obtain ⟨h0, h1, h2, h3, h4⟩ := blks_eq V c t ht
  show (cfg2.win 5).cut (grid2.coords t) ((dat2 V c).after 5 t) = _
  rw [after2_5, h1, h2, h3, h4]
  funext j
  obtain ⟨p, q, rfl⟩ : ∃ (p : Fin 512) (q : Fin 1024), j = ValueIdx.ix2 p q := ⟨j 0, j 1, ValueIdx.eq_ix2 j⟩
  rw [View.read_apply]
  have hemb : ((cfg2.win 5).blk t).view.emb (ValueIdx.ix2 p q) = (ValueIdx.ix2 ⟨512 * t.val + p.val, by omega⟩ q : S4096x1024.Idx) := by
    funext a; apply Fin.ext
    match a with
    | ⟨0, _⟩ => show win2_5.index t (0 : Fin 2) * 512 + 1 * p.val = 512 * t.val + p.val; omega
    | ⟨1, _⟩ => show win2_5.index t (1 : Fin 2) * 1024 + 1 * q.val = q.val; omega
  rw [hemb]
  show out2_5 (iblk2 V c 0 t) (aW1 V c) (aB1 V c) (aW2 V c) (aB2 V c) (ValueIdx.ix2 p q)
    = Spec.ffn (Spec.cur2 (aX V c)) (Spec.cur2 (aW1 V c)) (Spec.cur1 (aB1 V c)) (Spec.cur2 (aW2 V c)) (Spec.cur1 (aB2 V c)) ⟨512 * t.val + p.val, by omega⟩ q
  rw [out2_5_apply, ffn_chunks, show Spec.cur2 (iblk2 V c 0 t) p = Spec.cur2 (aX V c) ⟨512 * t.val + p.val, by omega⟩ from funext (h0 p)]

theorem cover5 (i : S4096x1024.Idx) : ∃ t : Fin cfg2.N, (cfg2.win 5).flush t = true ∧ i ∈ ((cfg2.win 5).blk t).view.set := by
  obtain ⟨t, h⟩ := row_cover N_2 win2_5.index (fun t => (idx_facts t).2.2.2.2.2.2.2) i
  refine ⟨t, flush2_5 t, ?_⟩
  show i ∈ ((View.whole main_v9).slice (win2_5.rect t)).set
  rw [View.set_slice_whole, Rect.mem_set_unit]
  exact h

theorem ffn_arr (c : Dev nD) :
    (dat2 V c).arrAt 5 cfg2.N = Spec.arr2 (Spec.ffn (Spec.cur2 (V c main_v6)) (Spec.cur2 (V c main_v7)) (Spec.cur1 (V c main_arg10))
      (Spec.cur2 (V c main_v8)) (Spec.cur1 (V c main_arg12))) :=
  (dat2 V c).arrAt_eq_of_cover 5 (G V c) (fun t _ => flushed_eq V c t) cover5

end Cert.KernelIdeal.Val

end
-- ==== Proof.HostIdeal.lean ====
import proofs.«405582_j50302656971267_3_alg».proof.KernelIdeal
import proofs.«405582_j50302656971267_3_alg».proof.Proof.Spec
import Idealize.ShloMosaic.Lib.Pipeline.Value
import Idealize.ShloMosaic.Lib.ValueIdx
import Idealize.ShloMosaic.PureOps.Ideal

noncomputable section

namespace Cert.KernelIdeal.Val

open Cert.KernelIdeal Idealize.ShloMosaic Idealize.ShloMosaic.TcCoe Cert.Spec

/-- Two matrices side by side, read at a column of the left one. -/
theorem catW_left (a b : S1024x1024.Idx → EReal) (h : Shape.Concatenates [S1024x1024, S1024x1024] S1024x2048 1) (k : Fin 1024) (j : Fin 1024) :
    concatenate S1024x2048 1 [⟨S1024x1024, a⟩, ⟨S1024x1024, b⟩] h
      (ValueIdx.ix2 k (Fin.castLE (by decide) j)) = a (ValueIdx.ix2 k j) :=
  concatenate_pair_apply_left (1 : Fin S1024x2048.rank) a b _ _ rfl (ValueIdx.ix2 k j) fun
    | ⟨0, _⟩ => rfl
    | ⟨1, _⟩ => rfl

theorem catW_right (a b : S1024x1024.Idx → EReal) (h : Shape.Concatenates [S1024x1024, S1024x1024] S1024x2048 1) (k : Fin 1024) (j : Fin 1024) :
    concatenate S1024x2048 1 [⟨S1024x1024, a⟩, ⟨S1024x1024, b⟩] h
      (ValueIdx.ix2 k (⟨1024 + j.val, by have := j.isLt; omega⟩ : Fin 2048)) = b (ValueIdx.ix2 k j) :=
  concatenate_pair_apply_right (1 : Fin S1024x2048.rank) a b _ _ rfl rfl (ValueIdx.ix2 k j)
    (fun
      | ⟨0, _⟩, _ => rfl
      | ⟨1, _⟩, hb => absurd rfl hb)
    (Nat.add_comm _ _)

theorem catB_left (a b : S1024.Idx → EReal) (h : Shape.Concatenates [S1024, S1024] S2048 0) (j : Fin 1024) :
    concatenate S2048 0 [⟨S1024, a⟩, ⟨S1024, b⟩] h
      (ValueIdx.ix1 (Fin.castLE (by decide) j)) = a (ValueIdx.ix1 j) :=
  concatenate_pair_apply_left (0 : Fin S2048.rank) a b _ _ rfl (ValueIdx.ix1 j) fun
    | ⟨0, _⟩ => rfl

theorem catB_right (a b : S1024.Idx → EReal) (h : Shape.Concatenates [S1024, S1024] S2048 0) (j : Fin 1024) :
    concatenate S2048 0 [⟨S1024, a⟩, ⟨S1024, b⟩] h
      (ValueIdx.ix1 (⟨1024 + j.val, by have := j.isLt; omega⟩ : Fin 2048)) = b (ValueIdx.ix1 j) :=
  concatenate_pair_apply_right (0 : Fin S2048.rank) a b _ _ rfl rfl (ValueIdx.ix1 j)
    (fun
      | ⟨0, _⟩, hb => absurd rfl hb)
    (Nat.add_comm _ _)

end Cert.KernelIdeal.Val

end
-- ==== Proof.FlashMath.lean ====
import proofs.«405582_j50302656971267_3_alg».proof.Proof.Spec
import Mathlib.Data.EReal.Basic
import Mathlib.Data.EReal.Operations
import Mathlib.Data.EReal.Inv
import Mathlib.Algebra.BigOperators.Fin
import Mathlib.Data.Finset.Lattice.Fold

noncomputable section

namespace Cert.Spec

open Idealize.ShloMosaic

def IsReal (x : EReal) : Prop := ∃ r : ℝ, x = (r : EReal)
def MatReal {n d : Nat} (M : Mat n d) : Prop := ∀ i j, IsReal (M i j)
def RowReal {d : Nat} (b : Row d) : Prop := ∀ j, IsReal (b j)

theorem isReal_iff_ne {x : EReal} : IsReal x ↔ x ≠ ⊥ ∧ x ≠ ⊤ :=
  ⟨fun ⟨r, h⟩ => by rw [h]; exact ⟨EReal.coe_ne_bot r, EReal.coe_ne_top r⟩,
    fun ⟨hb, ht⟩ => ⟨x.toReal, (EReal.coe_toReal ht hb).symm⟩⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩

theorem isReal_sum {ι : Type*} (s : Finset ι) (f : ι → EReal) (h : ∀ i ∈ s, IsReal (f i)) : IsReal (∑ i ∈ s, f i) :=
  Finset.sum_induction f IsReal (fun _ _ => IsReal.add) ⟨0, rfl⟩ h

theorem IsReal.div {x y : EReal} (hx : IsReal x) (hy : IsReal y) (h0 : y ≠ 0) : IsReal (Ideal.div x y) := by
  obtain ⟨b, rfl⟩ := hy
  rw [Ideal.div_coe fun hb => h0 (by rw [hb]; rfl)]
  exact hx.mul ⟨_, rfl⟩

theorem isReal_exp {x : EReal} (hx : x ≠ ⊤) : IsReal (Ideal.exp x) := by
  induction x using EReal.rec with
  | bot => exact ⟨0, rfl⟩
  | top => exact absurd rfl hx
  | coe r => exact ⟨Real.exp r, rfl⟩

/-- Distributivity fails on the extended reals (∞ − ∞) but holds for a real factor and real terms. -/
theorem mul_sum_of_isReal {ι : Type*} (s : Finset ι) (f : ι → EReal) {c : EReal} (hc : IsReal c) (h : ∀ i ∈ s, IsReal (f i)) :
    c * ∑ i ∈ s, f i = ∑ i ∈ s, c * f i := by
  classical
  induction s using Finset.induction_on with
  | empty => rw [Finset.sum_empty, Finset.sum_empty, mul_zero]
  | insert a s ha ih =>
    rw [Finset.sum_insert ha, Finset.sum_insert ha, ← ih fun i hi => h i (Finset.mem_insert_of_mem hi)]
    obtain ⟨x, hx⟩ := h a (Finset.mem_insert_self a s)
    obtain ⟨y, hy⟩ := isReal_sum s f fun i hi => h i (Finset.mem_insert_of_mem hi)
    obtain ⟨z, rfl⟩ := hc
    rw [hx, hy, ← EReal.coe_add, ← EReal.coe_mul, ← EReal.coe_mul, ← EReal.coe_mul, ← EReal.coe_add, mul_add]
theorem exp_nonneg (x : EReal) : 0 ≤ Ideal.exp x := by
  induction x using EReal.rec with
  | bot => exact le_refl _
  | top => exact le_top
  | coe r => exact EReal.coe_nonneg.mpr (Real.exp_pos r).le

theorem sub_coe_ne_top {x : EReal} (hx : x ≠ ⊤) (m : ℝ) : x - (m : EReal) ≠ ⊤ := by
  induction x using EReal.rec with
  | bot => rw [EReal.bot_sub]; exact bot_ne_top
  | top => exact absurd rfl hx
  | coe r => exact EReal.coe_ne_top _

/-- Moving the reference maximum from `m` to `m'` multiplies every weight by `e^{m − m'}`; at `−∞` both sides vanish. -/
theorem exp_rescale (m m' : ℝ) {x : EReal} (hx : x ≠ ⊤) :
    Ideal.exp ((m : EReal) - (m' : EReal)) * Ideal.exp (x - (m : EReal)) = Ideal.exp (x - (m' : EReal)) := by
  induction x using EReal.rec with
  | bot => rw [EReal.bot_sub, EReal.bot_sub, Ideal.exp_bot, mul_zero]
  | top => exact absurd rfl hx
  | coe r =>
    rw [← EReal.coe_sub, ← EReal.coe_sub, ← EReal.coe_sub, Ideal.exp_coe, Ideal.exp_coe, Ideal.exp_coe, ← EReal.coe_mul,
      ← Real.exp_add]
    congr 2
    ring

section Recurrence

variable {B D : Nat}

/-- One step of the streamed softmax: the new maximum, and the old sums rescaled to it plus the new tile's sums. -/
def upd (m l : EReal) (a : Fin D → EReal) (S : Fin B → EReal) (v : Fin B → Fin D → EReal) :
    EReal × EReal × (Fin D → EReal) :=
  let m' := max m (Finset.univ.sup S)
  (m', Ideal.exp (m - m') * l + ∑ c, Ideal.exp (S c - m'),
   fun d => Ideal.exp (m - m') * a d + ∑ c, Ideal.exp (S c - m') * v c d)

def fold (S : Nat → Fin B → EReal) (v : Nat → Fin B → Fin D → EReal) : Nat → EReal × EReal × (Fin D → EReal)
  | 0 => (⊥, 0, fun _ => 0)
  | n + 1 => upd (fold S v n).1 (fold S v n).2.1 (fold S v n).2.2 (S n) (v n)

theorem fold_zero (S : Nat → Fin B → EReal) (v : Nat → Fin B → Fin D → EReal) : fold S v 0 = (⊥, 0, fun _ => 0) := rfl

theorem fold_succ (S : Nat → Fin B → EReal) (v : Nat → Fin B → Fin D → EReal) (n : Nat) :
    fold S v (n + 1) = upd (fold S v n).1 (fold S v n).2.1 (fold S v n).2.2 (S n) (v n) := rfl

/-- The closed forms over the first `n` tiles: the maximum `M`, then `∑ e^{S − M}` and `∑ e^{S − M} v`. -/
def tilesMax (S : Nat → Fin B → EReal) (n : Nat) : EReal := (Finset.range n).sup fun k => Finset.univ.sup (S k)
def tilesDen (S : Nat → Fin B → EReal) (n : Nat) : EReal :=
  ∑ k ∈ Finset.range n, ∑ c, Ideal.exp (S k c - tilesMax S n)
def tilesAcc (S : Nat → Fin B → EReal) (v : Nat → Fin B → Fin D → EReal) (n : Nat) : Fin D → EReal :=
  fun d => ∑ k ∈ Finset.range n, ∑ c, Ideal.exp (S k c - tilesMax S n) * v k c d

structure TilesOk (S : Nat → Fin B → EReal) (v : Nat → Fin B → Fin D → EReal) (n : Nat) : Prop where
  ne_top : ∀ k, k < n → ∀ c, S k c ≠ ⊤
  some_real : ∀ k, k < n → ∃ c, S k c ≠ ⊥
  val_real : ∀ k, k < n → ∀ c d, IsReal (v k c d)

variable {S : Nat → Fin B → EReal} {v : Nat → Fin B → Fin D → EReal} {n : Nat}

theorem TilesOk.mono {n' : Nat} (h : TilesOk S v n) (hn : n' ≤ n) : TilesOk S v n' :=
  ⟨fun k hk => h.ne_top k (lt_of_lt_of_le hk hn), fun k hk => h.some_real k (lt_of_lt_of_le hk hn),
    fun k hk => h.val_real k (lt_of_lt_of_le hk hn)⟩

theorem tilesMax_real (h : TilesOk S v (n + 1)) : IsReal (tilesMax S (n + 1)) := by
  obtain ⟨c, hc⟩ := h.some_real 0 n.succ_pos
  refine isReal_iff_ne.mpr ⟨fun hbot => hc (le_bot_iff.mp (hbot ▸ ?_)), ne_of_lt ?_⟩
  · exact le_trans (Finset.le_sup (f := S 0) (Finset.mem_univ c))
      (Finset.le_sup (f := fun k => Finset.univ.sup (S k)) (Finset.mem_range.mpr n.succ_pos))
  · exact (Finset.sup_lt_iff bot_lt_top).mpr fun k hk =>
      (Finset.sup_lt_iff bot_lt_top).mpr fun c _ => lt_top_iff_ne_top.mpr (h.ne_top k (Finset.mem_range.mp hk) c)

theorem isReal_weight (h : TilesOk S v n) {k : Nat} (hk : k ∈ Finset.range n) (c : Fin B) (M : ℝ) :
    IsReal (Ideal.exp (S k c - (M : EReal))) :=
  isReal_exp (sub_coe_ne_top (h.ne_top k (Finset.mem_range.mp hk) c) M)

/-- Every weight is a real `≥ 0`, and tile 0 has a logit above `−∞`, whose weight is positive. -/
theorem tilesDen_pos (h : TilesOk S v (n + 1)) : ∃ r : ℝ, 0 < r ∧ tilesDen S (n + 1) = (r : EReal) := by
  obtain ⟨M, hM⟩ := tilesMax_real h
  obtain ⟨c, hc⟩ := h.some_real 0 n.succ_pos
  obtain ⟨x, hx⟩ := isReal_iff_ne.mpr ⟨hc, h.ne_top 0 n.succ_pos c⟩
  unfold tilesDen
  rw [hM]
  obtain ⟨r, hr⟩ := isReal_sum _ _ fun k hk => isReal_sum _ _ fun c _ => isReal_weight h hk c M
  refine ⟨r, EReal.coe_pos.mp (hr ▸ lt_of_lt_of_le ?_ (le_trans
    (Finset.single_le_sum (f := fun c' => Ideal.exp (S 0 c' - (M : EReal))) (fun c' _ => exp_nonneg _) (Finset.mem_univ c))
    (Finset.single_le_sum (f := fun k => ∑ c', Ideal.exp (S k c' - (M : EReal)))
      (fun k _ => Finset.sum_nonneg fun c' _ => exp_nonneg _) (Finset.mem_range.mpr n.succ_pos)))), hr⟩
  rw [hx, ← EReal.coe_sub, Ideal.exp_coe]
  exact EReal.coe_pos.mpr (Real.exp_pos _)

theorem mul_sum_tiles {c : EReal} (hc : IsReal c) (n : Nat) (f : Nat → Fin B → EReal)
    (h : ∀ k ∈ Finset.range n, ∀ i ∈ Finset.univ, IsReal (f k i)) :
    c * ∑ k ∈ Finset.range n, ∑ i, f k i = ∑ k ∈ Finset.range n, ∑ i, c * f k i := by
  rw [mul_sum_of_isReal _ _ hc fun k hk => isReal_sum _ _ (h k hk)]
  exact Finset.sum_congr rfl fun k hk => mul_sum_of_isReal _ _ hc (h k hk)

/-- By induction the running triple is the closed form: the old sums are empty (`n = 0`) or rescaled term by term from their real maximum. -/
theorem fold_closed (h : TilesOk S v n) : fold S v n = (tilesMax S n, tilesDen S n, tilesAcc S v n) := by
  induction n with
  | zero => rfl
  | succ n ih =>
    rw [fold_succ, ih (h.mono (Nat.le_succ _))]
    obtain ⟨M', hM'⟩ := tilesMax_real h
    have hmax : max (tilesMax S n) (Finset.univ.sup (S n)) = (M' : EReal) := by
      rw [← hM', max_comm]
      unfold tilesMax
      rw [Finset.range_add_one, Finset.sup_insert]
    have key : ∀ g : Nat → Fin B → EReal, (∀ k, k < n → ∀ c, IsReal (g k c)) →
        Ideal.exp (tilesMax S n - (M' : EReal)) * ∑ k ∈ Finset.range n, ∑ c, Ideal.exp (S k c - tilesMax S n) * g k c
          = ∑ k ∈ Finset.range n, ∑ c, Ideal.exp (S k c - (M' : EReal)) * g k c := fun g hg => by
      rcases n with _ | p
      · rw [Finset.sum_range_zero, Finset.sum_range_zero, mul_zero]
      · have hp := h.mono (Nat.le_succ _)
        obtain ⟨M, hM⟩ := tilesMax_real hp
        have hc : IsReal (Ideal.exp ((M : EReal) - (M' : EReal))) := ⟨Real.exp (M - M'), rfl⟩
        rw [hM, mul_sum_tiles hc _ _ fun k hk c _ => (isReal_weight hp hk c M).mul (hg k (Finset.mem_range.mp hk) c)]
        refine Finset.sum_congr rfl fun k hk => Finset.sum_congr rfl fun c _ => ?_
        rw [← mul_assoc, exp_rescale M M' (hp.ne_top k (Finset.mem_range.mp hk) c)]
    unfold upd
    simp only [hmax]
    refine Prod.ext hM'.symm (Prod.ext ?_ (funext fun d => ?_))
    · have e := key (fun _ _ => 1) fun _ _ _ => ⟨1, rfl⟩
      simp only [mul_one] at e
      show _ * tilesDen S n + _ = tilesDen S (n + 1)
      unfold tilesDen
      rw [hM', Finset.sum_range_succ, e]
    · show _ * tilesAcc S v n d + _ = tilesAcc S v (n + 1) d
      unfold tilesAcc
      rw [hM', Finset.sum_range_succ, key (fun k c => v k c d) fun k hk c => h.val_real k (Nat.lt_succ_of_lt hk) c d]

/-- Dividing the weighted sum by the denominator divides each weight, which gives the softmax weights. -/
theorem normalise (h : TilesOk S v (n + 1)) (d : Fin D) :
    Ideal.div 1 (tilesDen S (n + 1)) * tilesAcc S v (n + 1) d
      = ∑ k ∈ Finset.range (n + 1), ∑ c, Ideal.div (Ideal.exp (S k c - tilesMax S (n + 1))) (tilesDen S (n + 1)) * v k c d := by
  obtain ⟨l, hl0, hl⟩ := tilesDen_pos h
  obtain ⟨M, hM⟩ := tilesMax_real h
  have hd : IsReal (Ideal.div 1 (l : EReal)) := IsReal.div ⟨1, rfl⟩ ⟨l, rfl⟩ (by exact_mod_cast hl0.ne')
  rw [hl]
  unfold tilesAcc
  rw [hM, mul_sum_tiles hd _ _ fun k hk c _ => (isReal_weight h hk c M).mul (h.val_real k (Finset.mem_range.mp hk) c d)]
  refine Finset.sum_congr rfl fun k _ => Finset.sum_congr rfl fun c _ => ?_
  rw [Ideal.div_coe hl0.ne', Ideal.div_coe hl0.ne', one_mul, ← mul_assoc, mul_comm (Ideal.exp _)]

end Recurrence

section Tiles

variable {T B D : Nat}

/-- Entry `c` of tile `k` sits at position `k · B + c` of the row. -/
def tileIx (k : Fin T) (c : Fin B) : Fin (T * B) :=
  ⟨k.val * B + c.val, by
    have h1 : (k.val + 1) * B ≤ T * B := Nat.mul_le_mul_right B k.isLt
    have h2 := c.isLt
    rw [Nat.add_mul, Nat.one_mul] at h1
    omega⟩

@[simp] theorem tileIx_val (k : Fin T) (c : Fin B) : (tileIx k c).val = k.val * B + c.val := rfl

theorem tileIx_eq (k : Fin T) (c : Fin B) : tileIx k c = finProdFinEquiv (k, c) :=
  Fin.ext ((Nat.add_comm _ _).trans (congrArg _ (Nat.mul_comm _ _)))

theorem sum_tiles (f : Fin (T * B) → EReal) : ∑ j, f j = ∑ k : Fin T, ∑ c : Fin B, f (tileIx k c) := by
  rw [← Equiv.sum_comp finProdFinEquiv f, Fintype.sum_prod_type]
  simp only [tileIx_eq]

def rowTiles (s : Fin (T * B) → EReal) : Nat → Fin B → EReal :=
  fun k c => if h : k < T then s (tileIx ⟨k, h⟩ c) else ⊥
def valTiles (V : Mat (T * B) D) : Nat → Fin B → Fin D → EReal :=
  fun k c d => if h : k < T then V (tileIx ⟨k, h⟩ c) d else 0

theorem rowTiles_of_lt (s : Fin (T * B) → EReal) {k : Nat} (h : k < T) (c : Fin B) : rowTiles s k c = s (tileIx ⟨k, h⟩ c) := dif_pos h
theorem valTiles_of_lt (V : Mat (T * B) D) {k : Nat} (h : k < T) (c : Fin B) (d : Fin D) : valTiles V k c d = V (tileIx ⟨k, h⟩ c) d := dif_pos h

/-- A causally masked row: no `+∞`, each tile `0 … n` has an entry above `−∞`, every later tile is `−∞` throughout. -/
structure RowOk (s : Fin (T * B) → EReal) (n : Nat) : Prop where
  lt : n < T
  ne_top : ∀ j, s j ≠ ⊤
  some_real : ∀ k : Fin T, k.val ≤ n → ∃ c : Fin B, s (tileIx k c) ≠ ⊥
  masked : ∀ (k : Fin T) (c : Fin B), n < k.val → s (tileIx k c) = ⊥

variable {s : Fin (T * B) → EReal} {V : Mat (T * B) D} {n : Nat}

theorem tilesOk_of_rowOk (h : RowOk (B := B) s n) (hV : MatReal V) : TilesOk (rowTiles s) (valTiles V) (n + 1) := by
  have hT : ∀ k, k < n + 1 → k < T := fun k hk => lt_of_le_of_lt (Nat.lt_succ_iff.mp hk) h.lt
  refine ⟨fun k hk c => ?_, fun k hk => ?_, fun k hk c d => ?_⟩
  · rw [rowTiles_of_lt s (hT k hk)]; exact h.ne_top _
  · obtain ⟨c, hc⟩ := h.some_real ⟨k, hT k hk⟩ (Nat.lt_succ_iff.mp hk)
    exact ⟨c, by rw [rowTiles_of_lt s (hT k hk)]; exact hc⟩
  · rw [valTiles_of_lt V (hT k hk)]; exact hV _ _

theorem rowOk_sup (h : RowOk (B := B) s n) : Finset.univ.sup s = tilesMax (rowTiles s) (n + 1) := by
  apply le_antisymm
  · refine Finset.sup_le fun j _ => ?_
    obtain ⟨⟨k, c⟩, rfl⟩ := finProdFinEquiv.surjective j
    rw [← tileIx_eq]
    rcases Nat.lt_or_ge n k.val with hk | hk
    · rw [h.masked k c hk]; exact bot_le
    · rw [← rowTiles_of_lt s k.isLt c]
      exact le_trans (Finset.le_sup (f := rowTiles s k.val) (Finset.mem_univ c))
        (Finset.le_sup (f := fun k => Finset.univ.sup (rowTiles s k)) (Finset.mem_range.mpr (Nat.lt_succ_of_le hk)))
  · refine Finset.sup_le fun k hk => Finset.sup_le fun c _ => ?_
    rw [rowTiles_of_lt s (lt_of_le_of_lt (Nat.lt_succ_iff.mp (Finset.mem_range.mp hk)) h.lt)]
    exact Finset.le_sup (Finset.mem_univ _)

/-- A masked tile contributes `e^{−∞} = 0`, so a sum over the row is the sum over tiles `0 … n`. -/
theorem rowOk_sum (h : RowOk (B := B) s n) (M : EReal) (w : EReal → EReal) (hw : w 0 = 0) (g : Fin (T * B) → EReal)
    (g' : Nat → Fin B → EReal) (hg : ∀ (k : Fin T) c, g (tileIx k c) = g' k.val c) :
    ∑ j, w (Ideal.exp (s j - M)) * g j = ∑ k ∈ Finset.range (n + 1), ∑ c, w (Ideal.exp (rowTiles s k c - M)) * g' k c := by
  rw [sum_tiles, Finset.sum_fin_eq_sum_range, ← Finset.sum_subset (Finset.range_subset_range.mpr h.lt)]
  · refine Finset.sum_congr rfl fun k hk => ?_
    have hkT : k < T := lt_of_le_of_lt (Nat.lt_succ_iff.mp (Finset.mem_range.mp hk)) h.lt
    rw [dif_pos hkT]
    exact Finset.sum_congr rfl fun c _ => by rw [rowTiles_of_lt s hkT, hg]
  · intro k hk hk'
    rw [dif_pos (Finset.mem_range.mp hk)]
    refine Finset.sum_eq_zero fun c _ => ?_
    rw [h.masked ⟨k, Finset.mem_range.mp hk⟩ c (Nat.lt_of_not_le fun hle => hk' (Finset.mem_range.mpr (Nat.lt_succ_of_le hle))),
      EReal.bot_sub, Ideal.exp_bot, hw, zero_mul]

theorem rowOk_den (h : RowOk (B := B) s n) : ∑ j, Ideal.exp (s j - Finset.univ.sup s) = tilesDen (rowTiles s) (n + 1) := by
  have e := rowOk_sum h (Finset.univ.sup s) id rfl (fun _ => 1) (fun _ _ => 1) fun _ _ => rfl
  simp only [mul_one, id] at e
  rw [e, rowOk_sup h]
  rfl

theorem rowOk_flash (h : RowOk (B := B) s n) (hV : MatReal V) (d : Fin D) :
    (fold (rowTiles s) (valTiles V) (n + 1)).2.2 d * Ideal.div 1 (fold (rowTiles s) (valTiles V) (n + 1)).2.1
      = ∑ j, Ideal.div (Ideal.exp (s j - Finset.univ.sup s)) (∑ j', Ideal.exp (s j' - Finset.univ.sup s)) * V j d := by
  have hok := tilesOk_of_rowOk h hV
  obtain ⟨l, hl0, hl⟩ := tilesDen_pos hok
  rw [fold_closed hok]
  show tilesAcc (rowTiles s) (valTiles V) (n + 1) d * Ideal.div 1 (tilesDen (rowTiles s) (n + 1)) = _
  rw [mul_comm (tilesAcc _ _ _ d), normalise hok d, rowOk_den h, rowOk_sup h]
  exact (rowOk_sum h _ (fun x => Ideal.div x (tilesDen (rowTiles s) (n + 1)))
    (by show Ideal.div 0 _ = 0; rw [hl, Ideal.div_coe hl0.ne', zero_mul]) (fun j => V j d) _
    fun k c => (valTiles_of_lt V k.isLt c d).symm).symm

theorem logit_real {Q K : Mat (T * B) D} (hQ : MatReal Q) (hK : MatReal K) (hsc : IsReal scale) {i j : Fin (T * B)} (hji : j.val ≤ i.val) :
    IsReal (logit Q K i j) := by
  unfold logit
  rw [if_pos hji]
  exact (isReal_sum _ _ fun k _ => (hQ i k).mul (hK j k)).mul hsc

/-- Keys after the query are masked; each tile `0 … i / B` starts with a key that is not after query `i`. -/
theorem logit_rowOk {Q K : Mat (T * B) D} (hQ : MatReal Q) (hK : MatReal K) (hsc : IsReal scale) (i : Fin (T * B)) :
    RowOk (B := B) (logit Q K i) (i.val / B) := by
  have hB : 0 < B := Nat.pos_of_ne_zero fun h0 =>
    absurd (lt_of_le_of_lt (Nat.zero_le _) i.isLt) (by rw [h0, Nat.mul_zero]; exact Nat.lt_irrefl 0)
  refine ⟨(Nat.div_lt_iff_lt_mul hB).mpr i.isLt, fun j => ?_, fun k hk => ⟨⟨0, hB⟩, ?_⟩, fun k c hk => ?_⟩
  · by_cases hj : j.val ≤ i.val
    · exact (isReal_iff_ne.mp (logit_real hQ hK hsc hj)).2
    · unfold logit; rw [if_neg hj]; exact bot_ne_top
  · exact (isReal_iff_ne.mp (logit_real hQ hK hsc (j := tileIx k ⟨0, hB⟩)
      (le_trans (Nat.mul_le_mul_right B hk) (Nat.div_mul_le_self i.val B)))).1
  · have h1 : i.val < k.val * B := (Nat.div_lt_iff_lt_mul hB).mp hk
    unfold logit
    rw [if_neg (by rw [tileIx_val]; omega)]

/-- So the streamed recurrence over tiles `0 … i / B`, normalised, is the specification's softmax-weighted sum. -/
theorem flash_row {Q K V : Mat (T * B) D} (hQ : MatReal Q) (hK : MatReal K) (hV : MatReal V) (hsc : IsReal scale) (i : Fin (T * B)) :
    (fun d => (fold (rowTiles (logit Q K i)) (valTiles V) (i.val / B + 1)).2.2 d
        * Ideal.div 1 (fold (rowTiles (logit Q K i)) (valTiles V) (i.val / B + 1)).2.1)
      = fun d => ∑ j, softmax (logit Q K) i j * V j d :=
  funext fun d => rowOk_flash (logit_rowOk hQ hK hsc i) hV d

end Tiles

/-- A variance is a mean of squares of reals: a real, and not negative. -/
theorem var_real {n d : Nat} {X : Mat n d} (hX : MatReal X) {L : ℝ} (hL : len = (L : EReal)) (hL0 : 0 < L) (i : Fin n) :
    IsReal (var X i) ∧ 0 ≤ var X i := by
  have hd : ∀ c, IsReal (X i c - mean X i) := fun c => (hX i c).sub (by
    unfold mean
    rw [hL]
    exact (isReal_sum _ _ fun c _ => hX i c).div ⟨L, rfl⟩ (by exact_mod_cast hL0.ne'))
  have hnn : ∀ c ∈ Finset.univ, 0 ≤ (X i c - mean X i) * (X i c - mean X i) := fun c _ => by
    obtain ⟨a, ha⟩ := hd c
    rw [ha, ← EReal.coe_mul]
    exact EReal.coe_nonneg.mpr (mul_self_nonneg a)
  obtain ⟨r, hr⟩ := isReal_sum Finset.univ _ fun c _ => (hd c).mul (hd c)
  have hr0 : 0 ≤ r := EReal.coe_nonneg.mp (hr ▸ Finset.sum_nonneg hnn)
  unfold var
  rw [hL, hr, Ideal.div_coe hL0.ne', ← EReal.coe_mul]
  exact ⟨⟨_, rfl⟩, EReal.coe_nonneg.mpr (mul_nonneg hr0 (one_div_pos.mpr hL0).le)⟩

/-- For a real `v ≥ 0` and `ε > 0`, `x · rsqrt (v + ε) = x / sqrt (v + ε)`. -/
theorem lnorm_entry {n d : Nat} {X : Mat n d} (hX : MatReal X) {L e : ℝ} (hL : len = (L : EReal)) (hL0 : 0 < L) (he : eps = (e : EReal)) (he0 : 0 < e)
    (γ β : Row d) (i : Fin n) (c : Fin d) :
    (X i c - mean X i) * Ideal.rsqrt (var X i + eps) * γ c + β c = lnorm X γ β i c := by
  obtain ⟨⟨x, hx⟩, hv0⟩ := var_real hX hL hL0 i
  rw [hx] at hv0
  have hr : 0 < x + e := add_pos_of_nonneg_of_pos (EReal.coe_nonneg.mp hv0) he0
  show _ = Ideal.div (X i c - mean X i) (Ideal.sqrt (var X i + eps)) * γ c + β c
  rw [he, hx, ← EReal.coe_add, Ideal.rsqrt_coe, Ideal.sqrt_coe]
  simp only [if_neg (not_lt.mpr hr.le), if_neg hr.ne']
  rw [Ideal.div_coe (Real.sqrt_pos.mpr hr).ne', one_div]

theorem matReal_proj {n d e : Nat} {X : Mat n d} {W : Mat d e} {b : Row e} (hX : MatReal X) (hW : MatReal W) (hb : RowReal b) : MatReal (proj X W b) :=
  fun i j => (isReal_sum _ _ fun k _ => (hX i k).mul (hW k j)).add (hb j)

/-- A softmax weight of real logits is a real over a positive real, so the attention output of real values is real. -/
theorem matReal_attnRes {T B D : Nat} {Q K V E : Mat (T * B) D} (hQ : MatReal Q) (hK : MatReal K) (hV : MatReal V) (hE : MatReal E)
    (hsc : IsReal scale) : MatReal (attnRes Q K V E) := fun i c => by
  have h := logit_rowOk (B := B) hQ hK hsc i
  have hok := tilesOk_of_rowOk h hV
  obtain ⟨M, hM⟩ := tilesMax_real hok
  obtain ⟨l, hl0, hl⟩ := tilesDen_pos hok
  refine (isReal_sum _ _ fun j _ => IsReal.mul ?_ (hV j c)).add (hE i c)
  show IsReal (Ideal.div (Ideal.exp (logit Q K i j - Finset.univ.sup (logit Q K i)))
    (∑ j', Ideal.exp (logit Q K i j' - Finset.univ.sup (logit Q K i))))
  rw [rowOk_den h, rowOk_sup h, hl, hM]
  exact (isReal_exp (sub_coe_ne_top (h.ne_top j) M)).div ⟨l, rfl⟩ (by exact_mod_cast hl0.ne')

end Cert.Spec

end
-- ==== Proof.Finite.lean ====
import proofs.«405582_j50302656971267_3_alg».proof.Defs
import proofs.«405582_j50302656971267_3_alg».proof.Proof.Gen.Pre_finite_inputs
import Idealize.ShloMosaic.Lib.ReduceAll
import Idealize.ShloMosaic.Lib.ValueIdx

noncomputable section

namespace Cert.Finite

open Idealize.ShloMosaic Idealize.SL.Sem

section

open Cert.Pre_finite_inputs

instance : Subsingleton S_.Idx := ⟨fun _ _ => funext fun d => d.elim0⟩

/-- An `and` over an array that comes out 1 met a 1 at every entry, and `max x (−x) < ⊤` rules out both infinities. -/
theorem all_real {s : Shape} {axes : List (Fin s.rank)} {x : FVec Ideal s .f32}
    {hb : S_.BroadcastsInDim s (![] : Fin 0 → Fin s.rank)} {hr : s.ReducesTo axes S_} {hu : 0 < S_.numel} {j : S_.Idx}
    (e : Host.reduce IntOp.andi (cmpf .olt (Host.absf x) (broadcastInDim s ![] hb (constant S_ .f32 0x7F800000#32)))
          (constantI S_ 1 1#1) hr hu j = 1#1)
    (i : s.Idx) : ∃ r : ℝ, x i = (r : EReal) := by
  have h : BitVec.ofBool (decide (max (x i) (-x i) < Ideal.ofBits .f32 0x7F800000#32)) = 1#1 :=
    Host.reduce_andi_all _ _ hr hu j e i
  rw [show Ideal.ofBits .f32 0x7F800000#32 = ⊤ by simp [Ideal.ofBits, Ideal.ieee]] at h
  have h' : max (x i) (-x i) < ⊤ := by
    by_contra hn
    rw [decide_eq_false hn] at h
    exact absurd h (by decide)
  generalize x i = y at h'
  induction y using EReal.rec
  · simp at h'
  · exact ⟨_, rfl⟩
  · simp at h'

end

open Cert.KernelIdeal

variable [hPre_finite_inputs : Cert.Pre_finite_inputs.Facts] (m : (ℓ : Loc nD τ sig) → Buf (Elt Ideal) ℓ)

/-- The precondition is the conjunction of the thirteen tests, one an argument. -/
theorem finite_of_pre (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal))
    ∧ (∀ i, ∃ r : ℝ, m ((c.tc : Thread nD τ).loc main_arg6) i = (r : EReal))
    ∧ (∀ i, ∃ r : ℝ, m ((c.tc : Thread nD τ).loc main_arg7) i = (r : EReal))
    ∧ (∀ i, ∃ r : ℝ, m ((c.tc : Thread nD τ).loc main_arg8) i = (r : EReal))
    ∧ (∀ i, ∃ r : ℝ, m ((c.tc : Thread nD τ).loc main_arg9) i = (r : EReal))
    ∧ (∀ i, ∃ r : ℝ, m ((c.tc : Thread nD τ).loc main_arg10) i = (r : EReal))
    ∧ (∀ i, ∃ r : ℝ, m ((c.tc : Thread nD τ).loc main_arg11) i = (r : EReal))
    ∧ (∀ i, ∃ r : ℝ, m ((c.tc : Thread nD τ).loc main_arg12) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨all_real e0, all_real e1, all_real e2, all_real e3, all_real e4, all_real e5, all_real e6, all_real e7, all_real e8,
    all_real e9, all_real e10, all_real e11, all_real e12⟩

end Cert.Finite

end
-- ==== Proof.FlashPay.lean ====
import proofs.«405582_j50302656971267_3_alg».proof.Proof.Steps
import proofs.«405582_j50302656971267_3_alg».proof.Proof.Spec
import proofs.«405582_j50302656971267_3_alg».proof.Proof.MatmulAt
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Val

open Cert.KernelIdeal Cert.KernelIdeal.Gen Cert.KernelIdeal.Hand Idealize.ShloMosaic Idealize.ShloMosaic.ValueIdx
open scoped BigOperators

theorem word_neg_inf : Ideal.ofBits .f32 0xFF800000#32 = ⊥ := by simp [Ideal.ofBits, Ideal.ieee]

theorem word_one : Ideal.ofBits .f32 0x3F800000#32 = 1 := by
  simp [Ideal.ofBits, Ideal.ieee, -EReal.coe_mul]; norm_num

theorem word_neg_big : Named.named (F := Ideal) κ "neg_big" (φ := .f32) 0xFF333332#32 = ⊥ :=
  IdealRules.named_const.ideal_named_scalar _ _ _ _ rfl

section
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    rw [if_neg ha]
  | ⟨1, _⟩ =>
    show (0 : ℕ) = if (1 : ℕ) = 1 then 0 else j.val
    rw [if_pos rfl]

end

section
variable (e : FVec Ideal S512x1024 .bf16) (wq : FVec Ideal S1024x1024 .bf16) (bq : FVec Ideal S1024 .f32)

theorem reset_mx :
    (reset (F := Ideal) e wq bq).mx = fun _ => ⊥ :=
  (shapeCast_self _ shapeCasts_S512x1_S512x1).trans (funext fun _ => word_neg_inf)

theorem reset_den :
    (reset (F := Ideal) e wq bq).den = fun _ => 0 :=
  (shapeCast_self _ shapeCasts_S512x1_S512x1).trans (funext fun _ => Ideal.ofBits_zero_f32)

theorem reset_acc :
    (reset (F := Ideal) e wq bq).acc = fun _ => 0 :=
  (shapeCast_self _ shapeCasts_S512x1024_S512x1024).trans (funext fun _ => Ideal.ofBits_zero_f32)

theorem reset_qry (r : Fin 512) (d : Fin 1024) :
    (reset (F := Ideal) e wq bq).qry (ix2 r d) = (∑ k : Fin 1024, e (ix2 r k) * wq (ix2 k d)) + bq (ValueIdx.ix1 d) := by
  unfold reset k1_pay8
  simp only [shapeCast_self]
  rw [truncf_apply, addf_apply, matmul_at dot_S512x1024_S1024x1024_S512x1024_1_0_0_1_n_n rfl, broadcastTo_1b_ab_apply, shapeCast_a_1a_apply]

end

/-- Positions stay below `2^31`, so the signed reading of the position word is the position itself. -/
theorem pos_toInt (a : BitVec 32) (ha : a.toNat ≤ 7) (r : Fin 512) :
    (IntOp.addi (Scalar.muli a 512#32) (BitVec.ofNat 32 r.val)).toInt = ((a.toNat * 512 + r.val : ℕ) : ℤ) := by
  have hr := r.isLt
  have hn : (IntOp.addi (Scalar.muli a 512#32) (BitVec.ofNat 32 r.val)).toNat = a.toNat * 512 + r.val := by
    show (a * 512#32 + BitVec.ofNat 32 r.val).toNat = _
    rw [BitVec.toNat_add, BitVec.toNat_mul, BitVec.toNat_ofNat]
    show (a.toNat * 512 % 4294967296 + r.val % 4294967296) % 4294967296 = _
    omega
  rw [BitVec.toInt_eq_toNat_of_lt (by rw [hn]; show 2 * (a.toNat * 512 + r.val) < 4294967296; omega), hn]

/-- The signed compare is set exactly when the key position is not after the query position. -/
theorem causal_bit (aq ki : BitVec 32) (haq : aq.toNat ≤ 7) (hki : ki.toNat ≤ 7) (r c : Fin 512) :
    IntOp.cmpi .sge (IntOp.addi (Scalar.muli aq 512#32) (BitVec.ofNat 32 r.val))
        (IntOp.addi (Scalar.muli ki 512#32) (BitVec.ofNat 32 c.val)) = (1 : BitVec 1)
      ↔ ki.toNat * 512 + c.val ≤ aq.toNat * 512 + r.val := by
  show BitVec.ofBool (BitVec.sle _ _) = (1 : BitVec 1) ↔ _
  rw [show (1 : BitVec 1) = BitVec.ofBool true from rfl, BitVec.ofBool_eq_iff_eq, BitVec.sle_iff_toInt_le,
    pos_toInt aq haq r, pos_toInt ki hki c]
  exact Int.ofNat_le

/-- The scaled logit of query row `r` against key row `c`, and `−∞` where the key lies after the query. -/
def tileLogit (aq ki : BitVec 32) (q kb : FVec Ideal S512x1024 .bf16) (r c : Fin 512) : EReal :=
  if ki.toNat * 512 + c.val ≤ aq.toNat * 512 + r.val then (∑ d : Fin 1024, q (ix2 r d) * kb (ix2 c d)) * Spec.scale else ⊥

/-- The running maximum of row `r` after the tile. -/
def stepMax (aq ki : BitVec 32) (s : Scr Ideal) (kb : FVec Ideal S512x1024 .bf16) (r : Fin 512) : EReal :=
  max (s.mx (ix2 r (0 : Fin 1))) (Finset.univ.sup (tileLogit aq ki s.qry kb r))

theorem qk_apply (q kb : FVec Ideal S512x1024 .bf16) (r c : Fin 512) :
    matmul dot_S512x1024_S1024x512_S512x512_1_0_0_1_n_n none q
        (transpose S1024x512 [1, 0] (shapeCast S512x1024 kb shapeCasts_S512x1024_S512x1024) transposes_S512x1024_p1_0_S1024x512)
        (constant (F := Ideal) S512x512 .f32 0x00000000#32) (ix2 r c)
      = ∑ d : Fin 1024, q (ix2 r d) * kb (ix2 c d) := by
  rw [shapeCast_self, matmul_at dot_S512x1024_S1024x512_S512x512_1_0_0_1_n_n rfl]
  exact Finset.sum_congr rfl fun k _ => by rw [transpose_ix2_apply]

theorem lift_row {n : ℕ} (h : (⟨2, ![512, n]⟩ : Shape).Reduces [1] S512) (r : Fin 512) (k : Fin n) :
    h.lift (ValueIdx.ix1 r) k = ix2 r k :=
  funext fun a => Fin.ext (match a with | ⟨0, _⟩ => rfl | ⟨1, _⟩ => rfl)

theorem rowmax_apply (x : FVec Ideal S512x512 .f32) (r : Fin 512) :
    multiReduction .maximumf [1] S512 x 0xFF800000#32 reduces_S512x512_S512 (.inl rfl) rfl (ValueIdx.ix1 r)
      = Finset.univ.sup fun c : Fin 512 => x (ix2 r c) := by
  refine (Ideal.multiReduction_maximumf_single x 0xFF800000#32 reduces_S512x512_S512 (.inl rfl) rfl (ValueIdx.ix1 r)).trans ?_
  show (Finset.univ : Finset (Fin 512)).fold max (Ideal.ofBits .f32 0xFF800000#32)
      (fun c => x (reduces_S512x512_S512.lift (ValueIdx.ix1 r) c)) = _
  rw [word_neg_inf]
  exact congrArg (fun f => (Finset.univ : Finset (Fin 512)).fold max ⊥ f) (funext fun c => congrArg x (lift_row _ r c))

theorem rowsum_apply {n : ℕ} (h : (⟨2, ![512, n]⟩ : Shape).Reduces [1] S512) (x : FVec Ideal ⟨2, ![512, n]⟩ .f32) (r : Fin 512) :
    multiReduction .add [1] S512 x 0x00000000#32 h (.inl rfl) rfl (ValueIdx.ix1 r) = ∑ c : Fin n, x (ix2 r c) :=
  (Ideal.multiReduction_add_single x 0x00000000#32 h (.inl rfl) rfl (ValueIdx.ix1 r)).trans
    (Finset.sum_congr rfl fun c _ => congrArg x (lift_row h r c))

section
variable (aq ki : BitVec 32) (haq : aq.toNat ≤ 7) (hki : ki.toNat ≤ 7)
include haq hki

theorem pay9_eq_tileLogit (q kb : FVec Ideal S512x1024 .bf16)
    (r c : Fin 512) :
    k1_pay9 (F := Ideal) aq ki q kb (ix2 r c) = tileLogit aq ki q kb r c := by
  unfold tileLogit
  have h0 : iota .tc S512x512 32 [0] iota_S512x512_d0_w32 (ix2 r c) = BitVec.ofNat 32 r.val :=
    iota_single_apply _ _ _ _ _ _
  have h1 : iota .tc S512x512 32 [1] iota_S512x512_d1_w32 (ix2 r c) = BitVec.ofNat 32 c.val :=
    iota_single_apply _ _ _ _ _ _
  show Scalar.select
      (IntOp.cmpi .sge (IntOp.addi (Scalar.muli aq 512#32) (iota .tc S512x512 32 [0] iota_S512x512_d0_w32 (ix2 r c)))
        (IntOp.addi (Scalar.muli ki 512#32) (iota .tc S512x512 32 [1] iota_S512x512_d1_w32 (ix2 r c))))
      (matmul dot_S512x1024_S1024x512_S512x512_1_0_0_1_n_n none q
          (transpose S1024x512 [1, 0] (shapeCast S512x1024 kb shapeCasts_S512x1024_S512x1024) transposes_S512x1024_p1_0_S1024x512)
          (constant (F := Ideal) S512x512 .f32 0x00000000#32) (ix2 r c) * Ideal.ofBits .f32 0x3D000000#32)
      (Named.named (F := Ideal) κ "neg_big" (φ := .f32) 0xFF333332#32) = _
  rw [h0, h1, qk_apply, word_neg_big]
  unfold Scalar.select
  by_cases h : ki.toNat * 512 + c.val ≤ aq.toNat * 512 + r.val
  · rw [if_pos h, if_pos ((causal_bit aq ki haq hki r c).mpr h)]
  · rw [if_neg h, if_neg (fun hb => h ((causal_bit aq ki haq hki r c).mp hb))]

theorem pay10_apply (q kb : FVec Ideal S512x1024 .bf16)
    (m : FVec Ideal S512x1 .f32) (r : Fin 512) :
    k1_pay10 (F := Ideal) aq ki q kb m (ix2 r (0 : Fin 1))
      = max (m (ix2 r (0 : Fin 1))) (Finset.univ.sup (tileLogit aq ki q kb r)) := by
  unfold k1_pay10
  dsimp only
  rw [maximumf_apply, shapeCast_a_a1_apply, rowmax_apply]
  exact congrArg (fun f => max (m (ix2 r (0 : Fin 1))) (Finset.univ.sup f))
    (funext fun c => pay9_eq_tileLogit aq ki haq hki q kb r c)

theorem pay11_apply (q kb : FVec Ideal S512x1024 .bf16)
    (m m₁ : FVec Ideal S512x1 .f32) (r : Fin 512) :
    k1_pay11 (F := Ideal) aq ki q kb m m₁ (ix2 r (0 : Fin 1))
      = Ideal.exp (m₁ (ix2 r (0 : Fin 1)) - max (m (ix2 r (0 : Fin 1))) (Finset.univ.sup (tileLogit aq ki q kb r))) := by
  show Ideal.exp (m₁ (ix2 r (0 : Fin 1)) - k1_pay10 (F := Ideal) aq ki q kb m (ix2 r (0 : Fin 1))) = _
  rw [pay10_apply aq ki haq hki]

theorem pay12_apply (q kb : FVec Ideal S512x1024 .bf16)
    (m : FVec Ideal S512x1 .f32) (r c : Fin 512) :
    k1_pay12 (F := Ideal) aq ki q kb m (ix2 r c)
      = Ideal.exp (tileLogit aq ki q kb r c - max (m (ix2 r (0 : Fin 1))) (Finset.univ.sup (tileLogit aq ki q kb r))) := by
  show Ideal.exp (k1_pay9 (F := Ideal) aq ki q kb (ix2 r c)
      - broadcastTo S512x512 (k1_pay10 (F := Ideal) aq ki q kb m) broadcasts_S512x1_S512x512 (ix2 r c)) = _
  rw [broadcastTo_a1_ab_apply (by decide), pay10_apply aq ki haq hki, pay9_eq_tileLogit aq ki haq hki]

theorem step_mx (s : Scr Ideal)
    (kb vb : FVec Ideal S512x1024 .bf16) (r : Fin 512) :
    (step (F := Ideal) aq ki s kb vb).mx (ix2 r (0 : Fin 1))
      = max (s.mx (ix2 r (0 : Fin 1))) (Finset.univ.sup (tileLogit aq ki s.qry kb r)) := by
  show shapeCast S512x1 (k1_pay10 (F := Ideal) aq ki s.qry kb s.mx) shapeCasts_S512x1_S512x1 (ix2 r (0 : Fin 1)) = _
  rw [shapeCast_self, pay10_apply aq ki haq hki]

theorem step_den (s : Scr Ideal)
    (kb vb : FVec Ideal S512x1024 .bf16) (r : Fin 512) :
    (step (F := Ideal) aq ki s kb vb).den (ix2 r (0 : Fin 1))
      = Ideal.exp (s.mx (ix2 r (0 : Fin 1)) - stepMax aq ki s kb r) * s.den (ix2 r (0 : Fin 1))
        + ∑ c : Fin 512, Ideal.exp (tileLogit aq ki s.qry kb r c - stepMax aq ki s kb r) := by
  unfold step k1_pay1 k1_pay13
  simp only [shapeCast_self]
  rw [addf_apply, mulf_apply, shapeCast_a_a1_apply, rowsum_apply, pay11_apply aq ki haq hki]
  unfold stepMax
  exact congrArg _ (Finset.sum_congr rfl fun c _ => pay12_apply aq ki haq hki s.qry kb s.mx r c)

theorem step_acc (s : Scr Ideal)
    (kb vb : FVec Ideal S512x1024 .bf16) (r : Fin 512) (d : Fin 1024) :
    (step (F := Ideal) aq ki s kb vb).acc (ix2 r d)
      = Ideal.exp (s.mx (ix2 r (0 : Fin 1)) - stepMax aq ki s kb r) * s.acc (ix2 r d)
        + ∑ c : Fin 512, Ideal.exp (tileLogit aq ki s.qry kb r c - stepMax aq ki s kb r) * vb (ix2 c d) := by
  unfold step k1_pay2
  simp only [shapeCast_self]
  rw [addf_apply, mulf_apply, broadcastTo_a1_ab_apply (by decide), pay11_apply aq ki haq hki,
    matmul_at dot_S512x512_S512x1024_S512x1024_1_0_0_1_n_n rfl]
  unfold stepMax
  exact congrArg _ (Finset.sum_congr rfl fun c _ =>
    congrArg (· * vb (ix2 c d)) (pay12_apply aq ki haq hki s.qry kb s.mx r c))

end

def epiRow (s : Scr Ideal) (e32 : FVec Ideal S512x1024 .f32) (r : Fin 512) (d : Fin 1024) : EReal :=
  s.acc (ix2 r d) * Ideal.div 1 (s.den (ix2 r (0 : Fin 1))) + e32 (ix2 r d)

def epiMean (s : Scr Ideal) (e32 : FVec Ideal S512x1024 .f32) (r : Fin 512) : EReal :=
  Ideal.div (∑ d : Fin 1024, epiRow s e32 r d) Spec.len

def epiVar (s : Scr Ideal) (e32 : FVec Ideal S512x1024 .f32) (r : Fin 512) : EReal :=
  Ideal.div (∑ d : Fin 1024, (epiRow s e32 r d - epiMean s e32 r) * (epiRow s e32 r d - epiMean s e32 r)) Spec.len

theorem rsqrt_apply {s : Shape} {φ : FTy} (a : FVec Ideal s φ) (i : s.Idx) : rsqrt a i = Ideal.rsqrt (a i) := rfl

/-- The epilogue normalises the row `a · (1 / l) + e` to mean zero and unit variance, then applies gain `g` and offset `b`. -/
theorem epilogue_apply (s : Scr Ideal) (e32 : FVec Ideal S512x1024 .f32) (g b : FVec Ideal S1024 .f32)
    (r : Fin 512) (d : Fin 1024) :
    epilogue (F := Ideal) s e32 g b (ix2 r d)
      = (epiRow s e32 r d - epiMean s e32 r) * Ideal.rsqrt (epiVar s e32 r + Spec.eps) * g (ValueIdx.ix1 d) + b (ValueIdx.ix1 d) := by
  unfold epilogue k1_pay4 epiVar epiMean epiRow
  simp only [truncf_apply, addf_apply, mulf_apply, subf_apply, divf_apply, rsqrt_apply, broadcast_apply,
    broadcastTo_a1_ab_apply (a := 512) (by decide), broadcastTo_1b_ab_apply, shapeCast_a_1a_apply, shapeCast_a_a1_apply, rowsum_apply reduces_S512x1024_S512,
    show Scalar.ofBits (F := Ideal) .f32 0x3F800000#32 = 1 from word_one] <;> rfl

end Cert.KernelIdeal.Val

end
-- ==== Proof.Consts.lean ====
import Idealize.ShloMosaic.PureOps.Ideal
import proofs.«405582_j50302656971267_3_alg».proof.Proof.Spec

noncomputable section

namespace Cert.Consts

open Idealize.ShloMosaic

/-- Exponent field 137, fraction 0: the word denotes `2¹⁰`. -/
theorem len_eq : Spec.len = ((1024 : ℝ) : EReal) := by
  simp [Spec.len, Ideal.ofBits, Ideal.ieee, -EReal.coe_mul]; norm_num

/-- Exponent field 122, fraction 0: the word denotes `2⁻⁵`. -/
theorem scale_eq : Spec.scale = ((1 / 32 : ℝ) : EReal) := by
  simp [Spec.scale, Ideal.ofBits, Ideal.ieee, -EReal.coe_mul]; norm_num

def epsR : ℝ := 10995116 / 1099511627776

theorem epsR_pos : 0 < epsR := by unfold epsR; norm_num

/-- Exponent field 110, fraction 2606508: the word denotes `(2²³ + 2606508) · 2⁻⁴⁰`. -/
theorem eps_eq : Spec.eps = ((epsR : ℝ) : EReal) := by
  unfold epsR
  simp [Spec.eps, Ideal.ofBits, Ideal.ieee, -EReal.coe_mul]; norm_num

theorem ofBits_neg_inf : Ideal.ofBits .f32 0xFF800000#32 = ⊥ := by simp [Ideal.ofBits, Ideal.ieee]

/-- `√1024 = 32`, so a quotient by it is a product with `1/32`, at the infinities too. -/
theorem div_sqrt_len (x : EReal) : Ideal.div x (Ideal.sqrt Spec.len) = x * Spec.scale := by
  rw [len_eq, scale_eq, Ideal.sqrt_coe, if_neg (by norm_num), show (1024 : ℝ) = 32 * 32 by norm_num,
    Real.sqrt_mul_self (by norm_num)]
  exact Ideal.div_coe (by norm_num) x

end Cert.Consts

end
-- ==== Proof.ValFlashRows.lean ====
import proofs.«405582_j50302656971267_3_alg».proof.Proof.FlashPay
import proofs.«405582_j50302656971267_3_alg».proof.Proof.FlashMath
import proofs.«405582_j50302656971267_3_alg».proof.Proof.Consts

noncomputable section

namespace Cert.KernelIdeal.Val

open Cert.KernelIdeal Cert.KernelIdeal.Gen Cert.KernelIdeal.Hand Idealize.ShloMosaic Idealize.ShloMosaic.ValueIdx
open Cert.Spec
open scoped BigOperators

def rowOf (s : Scr Ideal) (r : Fin 512) : EReal × EReal × (Fin 1024 → EReal) :=
  (s.mx (ix2 r (0 : Fin 1)), s.den (ix2 r (0 : Fin 1)), fun d => s.acc (ix2 r d))

theorem rowOf_reset (e : FVec Ideal S512x1024 .bf16) (wq : FVec Ideal S1024x1024 .bf16) (bq : FVec Ideal S1024 .f32) (r : Fin 512) :
    rowOf (reset (F := Ideal) e wq bq) r = (⊥, 0, fun _ => 0) := by
  unfold rowOf
  rw [reset_mx, reset_den, reset_acc]

section Blocks

variable (Q K Vv E : Mat (8 * 512) 1024)

theorem tileLogit_eq_rowTiles (aq ki : BitVec 32) (a : Fin 8) (k : Nat) (hk : k < 8) (haq : aq.toNat = a.val) (hki : ki.toNat = k)
    (q kb : FVec Ideal S512x1024 .bf16) (r : Fin 512)
    (hq : ∀ d, q (ix2 r d) = Q (tileIx a r) d) (hkb : ∀ c d, kb (ix2 c d) = K (tileIx (⟨k, hk⟩ : Fin 8) c) d) :
    tileLogit aq ki q kb r = rowTiles (T := 8) (B := 512) (logit Q K (tileIx a r)) k := by
  funext c
  rw [rowTiles_of_lt _ hk]
  unfold tileLogit logit
  rw [haq, hki]
  by_cases h : k * 512 + c.val ≤ a.val * 512 + r.val
  · rw [if_pos h, if_pos (show (tileIx (⟨k, hk⟩ : Fin 8) c).val ≤ (tileIx a r).val from h)]
    congr 1
    refine Finset.sum_congr rfl fun d _ => ?_
    rw [hq d, hkb c d]
  · rw [if_neg h, if_neg (show ¬(tileIx (⟨k, hk⟩ : Fin 8) c).val ≤ (tileIx a r).val from h)]

def Holds (a : Fin 8) (n : Nat) (s : Scr Ideal) : Prop :=
  ∀ r : Fin 512, rowOf s r = fold (rowTiles (T := 8) (B := 512) (logit Q K (tileIx a r))) (valTiles (T := 8) (B := 512) Vv) n
    ∧ ∀ d, s.qry (ix2 r d) = Q (tileIx a r) d

theorem holds_reset (a : Fin 8) (e : FVec Ideal S512x1024 .bf16) (wq : FVec Ideal S1024x1024 .bf16) (bq : FVec Ideal S1024 .f32)
    (hQ : ∀ r d, (∑ k : Fin 1024, e (ix2 r k) * wq (ix2 k d)) + bq (ValueIdx.ix1 d) = Q (tileIx a r) d) :
    Holds Q K Vv a 0 (reset (F := Ideal) e wq bq) := fun r =>
  ⟨(rowOf_reset e wq bq r).trans (fold_zero _ _).symm, fun d => (reset_qry e wq bq r d).trans (hQ r d)⟩

theorem holds_step (a : Fin 8) (n : Nat) (hn : n < 8) (aq ki : BitVec 32) (haq : aq.toNat = a.val) (hki : ki.toNat = n)
    (s : Scr Ideal) (hs : Holds Q K Vv a n s) (kb vb : FVec Ideal S512x1024 .bf16)
    (hkb : ∀ c d, kb (ix2 c d) = K (tileIx (⟨n, hn⟩ : Fin 8) c) d) (hvb : ∀ c d, vb (ix2 c d) = Vv (tileIx (⟨n, hn⟩ : Fin 8) c) d) :
    Holds Q K Vv a (n + 1) (step (F := Ideal) aq ki s kb vb) := fun r => by
  obtain ⟨h1, h2⟩ := hs r
  have haq' : aq.toNat ≤ 7 := by rw [haq]; have := a.isLt; omega
  have hki' : ki.toNat ≤ 7 := by rw [hki]; omega
  have hv : valTiles (T := 8) (B := 512) Vv n = fun c d => vb (ix2 c d) :=
    funext fun c => funext fun d => by rw [valTiles_of_lt _ hn, hvb]
  refine ⟨?_, h2⟩
  rw [fold_succ, ← h1, ← tileLogit_eq_rowTiles Q K aq ki a n hn haq hki s.qry kb r h2 hkb, hv]
  exact Prod.ext (step_mx aq ki haq' hki' s kb vb r)
    (Prod.ext (step_den aq ki haq' hki' s kb vb r) (funext fun d => step_acc aq ki haq' hki' s kb vb r d))

/-- After the diagonal tile a row's triple is the recurrence over tiles `0 … a` of row `a·512 + r`: `flash_row` applies, then `lnorm_entry`. -/
theorem epilogue_eq (hQ : MatReal Q) (hK : MatReal K) (hV : MatReal Vv) (hE : MatReal E) (γ β : Row 1024) (a : Fin 8) (s : Scr Ideal)
    (hs : Holds Q K Vv a (a.val + 1) s) (e32 : FVec Ideal S512x1024 .f32) (g b : FVec Ideal S1024 .f32)
    (he : ∀ r d, e32 (ix2 r d) = E (tileIx a r) d) (hg : ∀ d, g (ValueIdx.ix1 d) = γ d) (hb : ∀ d, b (ValueIdx.ix1 d) = β d)
    (r : Fin 512) (d : Fin 1024) :
    epilogue (F := Ideal) s e32 g b (ix2 r d) = lnorm (attnRes Q K Vv E) γ β (tileIx a r) d := by
  have hsc : IsReal scale := ⟨_, Cert.Consts.scale_eq⟩
  have hx : epiRow s e32 r = attnRes Q K Vv E (tileIx a r) := by
    obtain ⟨h1, -⟩ := hs r
    have hfl := flash_row (T := 8) (B := 512) hQ hK hV hsc (tileIx a r)
    rw [show (tileIx (T := 8) (B := 512) a r).val / 512 = a.val by rw [tileIx_val]; have := r.isLt; omega] at hfl
    funext d
    unfold epiRow attnRes
    rw [he r d, show s.acc (ix2 r d) = _ from congrFun (congrArg (fun p => p.2.2) h1) d,
      show s.den (ix2 r (0 : Fin 1)) = _ from congrArg (fun p => p.2.1) h1]
    exact congrArg (· + _) (congrFun hfl d)
  rw [epilogue_apply, hg, hb]
  unfold epiVar epiMean
  rw [hx]
  exact lnorm_entry (matReal_attnRes (T := 8) (B := 512) hQ hK hV hE hsc) Cert.Consts.len_eq (by norm_num) Cert.Consts.eps_eq
    Cert.Consts.epsR_pos γ β (tileIx a r) d

end Blocks

end Cert.KernelIdeal.Val

end
-- ==== Proof.ValFlashBlocks.lean ====
import proofs.«405582_j50302656971267_3_alg».proof.Proof.R1Dat
import proofs.«405582_j50302656971267_3_alg».proof.Proof.ValFlashRows
import Idealize.ShloMosaic.Lib.Pipeline.Value
import Idealize.ShloMosaic.Lib.ValueIdx

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)
open Cert.Spec

abbrev C1 : Pipeline.Cfg sig Λ₀ := Hand.cfg1 Idealize.ShloMosaic.Ideal

variable (V : (c : Dev nD) → (b : Ref sig .tc) → Buf (Elt Idealize.ShloMosaic.Ideal) ((c : Thread nD τ).loc b)) (c : Dev nD)

def aqF (t : Fin C1.N) : Fin 8 := ⟨aqAt t, by have := aqAt_le t; omega⟩
def kiF (t : Fin C1.N) : Fin 8 := ⟨kiAt t, by have := aqAt_le t; have := kiAt_le_aqAt t; omega⟩

/-- Entry `(r, d)` of a row block is entry `(tile · 512 + r, d)` of the whole array; a whole-array block is the array itself. -/
theorem iblk0_apply (t : Fin C1.N) (r : Fin 512) (d : Fin 1024) :
    iblk1 V c (0 : Fin 9) t (ix2 r d) = Spec.cur2 (V c main_v0) (tileIx (T := 8) (B := 512) (aqF t) r) d := by
  refine congrArg (V c main_v0) (funext fun a => Fin.ext ?_)
  match a with
  | ⟨0, _⟩ =>
    show (C1.win (0 : Fin 9)).index t (0 : Fin 2) * 512 + 1 * r.val = aqAt t * 512 + r.val
    rw [index1_0 (F := Idealize.ShloMosaic.Ideal) t]; show aqAt t * 512 + 1 * r.val = _; omega
  | ⟨1, _⟩ => show 0 * 1024 + 1 * d.val = d.val; omega

theorem iblk1_apply (t : Fin C1.N) (k d : Fin 1024) :
    iblk1 V c (1 : Fin 9) t (ix2 k d) = Spec.cur2 (V c main_v5) k d := by
  refine congrArg (V c main_v5) (funext fun a => Fin.ext ?_)
  match a with
  | ⟨0, _⟩ => show 0 * 1024 + 1 * k.val = k.val; omega
  | ⟨1, _⟩ => show 0 * 1024 + 1 * d.val = d.val; omega

theorem iblk2_apply (t : Fin C1.N) (d : Fin 1024) :
    iblk1 V c (2 : Fin 9) t (ValueIdx.ix1 d) = Spec.cur1 (V c main_arg2) d := by
  refine congrArg (V c main_arg2) (funext fun a => Fin.ext ?_)
  match a with
  | ⟨0, _⟩ => show 0 * 1024 + 1 * d.val = d.val; omega

theorem iblk3_apply (t : Fin C1.N) (r : Fin 512) (d : Fin 1024) :
    iblk1 V c (3 : Fin 9) t (ix2 r d) = Spec.cur2 (V c main_v4_0) (tileIx (T := 8) (B := 512) (kiF t) r) d := by
  refine congrArg (V c main_v4_0) (funext fun a => Fin.ext ?_)
  match a with
  | ⟨0, _⟩ =>
    show (C1.win (3 : Fin 9)).index t (0 : Fin 2) * 512 + 1 * r.val = kiAt t * 512 + r.val
    rw [index1_3 (F := Idealize.ShloMosaic.Ideal) t]; show kiAt t * 512 + 1 * r.val = _; omega
  | ⟨1, _⟩ => show 0 * 1024 + 1 * d.val = d.val; omega

theorem iblk4_apply (t : Fin C1.N) (r : Fin 512) (d : Fin 1024) :
    iblk1 V c (4 : Fin 9) t (ix2 r d) = Spec.cur2 (V c main_v4_1) (tileIx (T := 8) (B := 512) (kiF t) r) d := by
  refine congrArg (V c main_v4_1) (funext fun a => Fin.ext ?_)
  match a with
  | ⟨0, _⟩ =>
    show (C1.win (4 : Fin 9)).index t (0 : Fin 2) * 512 + 1 * r.val = kiAt t * 512 + r.val
    rw [index1_4 (F := Idealize.ShloMosaic.Ideal) t]; show kiAt t * 512 + 1 * r.val = _; omega
  | ⟨1, _⟩ => show 0 * 1024 + 1 * d.val = d.val; omega

theorem iblk5_apply (t : Fin C1.N) (r : Fin 512) (d : Fin 1024) :
    iblk1 V c (5 : Fin 9) t (ix2 r d) = Spec.cur2 (V c main_arg0) (tileIx (T := 8) (B := 512) (aqF t) r) d := by
  refine congrArg (V c main_arg0) (funext fun a => Fin.ext ?_)
  match a with
  | ⟨0, _⟩ =>
    show (C1.win (5 : Fin 9)).index t (0 : Fin 2) * 512 + 1 * r.val = aqAt t * 512 + r.val
    rw [index1_5 (F := Idealize.ShloMosaic.Ideal) t]; show aqAt t * 512 + 1 * r.val = _; omega
  | ⟨1, _⟩ => show 0 * 1024 + 1 * d.val = d.val; omega

theorem iblk6_apply (t : Fin C1.N) (d : Fin 1024) :
    iblk1 V c (6 : Fin 9) t (ValueIdx.ix1 d) = Spec.cur1 (V c main_arg7) d := by
  refine congrArg (V c main_arg7) (funext fun a => Fin.ext ?_)
  match a with
  | ⟨0, _⟩ => show 0 * 1024 + 1 * d.val = d.val; omega

theorem iblk7_apply (t : Fin C1.N) (d : Fin 1024) :
    iblk1 V c (7 : Fin 9) t (ValueIdx.ix1 d) = Spec.cur1 (V c main_arg8) d := by
  refine congrArg (V c main_arg8) (funext fun a => Fin.ext ?_)
  match a with
  | ⟨0, _⟩ => show 0 * 1024 + 1 * d.val = d.val; omega

theorem last_point (a : Fin 8) : ∃ t : Fin C1.N, aqAt t = a.val ∧ kiAt t = a.val := by
  have hN : C1.N = 36 := N1
  fin_cases a
  · exact ⟨⟨0, by rw [hN]; omega⟩, rfl, rfl⟩
  · exact ⟨⟨10, by rw [hN]; omega⟩, rfl, rfl⟩
  · exact ⟨⟨20, by rw [hN]; omega⟩, rfl, rfl⟩
  · exact ⟨⟨30, by rw [hN]; omega⟩, rfl, rfl⟩
  · exact ⟨⟨35, by rw [hN]; omega⟩, rfl, rfl⟩
  · exact ⟨⟨26, by rw [hN]; omega⟩, rfl, rfl⟩
  · exact ⟨⟨17, by rw [hN]; omega⟩, rfl, rfl⟩
  · exact ⟨⟨8, by rw [hN]; omega⟩, rfl, rfl⟩

theorem flushed8_eq (M : Mat 4096 1024)
    (hM : ∀ t : Fin C1.N, lastAt t → ∀ (r : Fin 512) (d : Fin 1024),
      (traj1 V c t.val t.isLt).2 (ix2 r d) = M (tileIx (T := 8) (B := 512) (aqF t) r) d)
    (t : Fin C1.N) (hf : (C1.win (8 : Fin 9)).flush t = true) :
    (dat1 V c).flushed (8 : Fin 9) t = ((C1.win (8 : Fin 9)).blk t).view.read (Elt Idealize.ShloMosaic.Ideal) (Spec.arr2 M) := by
  have hl : lastAt t := (flush1_8 t).mp hf
  show (C1.win (8 : Fin 9)).cut (C1.grid.coords t) ((dat1 V c).after (8 : Fin 9) t) = _
  rw [after1_8]
  funext j
  obtain ⟨r, d, rfl⟩ : ∃ (r : Fin 512) (d : Fin 1024), j = ix2 r d := ⟨j 0, j 1, eq_ix2 j⟩
  show (traj1 V c t.val t.isLt).2 (ix2 r d) = Spec.arr2 M (((C1.win (8 : Fin 9)).blk t).view.emb (ix2 r d))
  rw [hM t hl r d]
  refine congrArg₂ M (Fin.ext ?_) (Fin.ext ?_)
  · show aqAt t * 512 + r.val = (C1.win (8 : Fin 9)).index t 0 * 512 + 1 * r.val
    rw [index1_8 t]; show _ = aqAt t * 512 + 1 * r.val; omega
  · show d.val = 0 * 1024 + 1 * d.val; omega

theorem cover8 (i : S4096x1024.Idx) :
    ∃ t : Fin C1.N, (C1.win (8 : Fin 9)).flush t = true ∧ i ∈ ((C1.win (8 : Fin 9)).blk t).view.set := by
  have hi0 : (i 0).val < 4096 := (i 0).isLt
  have hi1 : (i 1).val < 1024 := (i 1).isLt
  obtain ⟨t, ha, hk⟩ := last_point ⟨(i 0).val / 512, by omega⟩
  refine ⟨t, (flush1_8 t).mpr (hk.trans ha.symm), ?_⟩
  show i ∈ ((View.whole main_v6).slice ((C1.win (8 : Fin 9)).rect t)).set
  rw [View.set_slice_whole, Rect.mem_set_unit]
  intro a
  match a with
  | ⟨0, _⟩ =>
    show (C1.win (8 : Fin 9)).index t 0 * 512 ≤ (i 0).val ∧ (i 0).val < (C1.win (8 : Fin 9)).index t 0 * 512 + 512
    rw [index1_8 t]
    show aqAt t * 512 ≤ (i 0).val ∧ (i 0).val < aqAt t * 512 + 512
    rw [ha]
    show (i 0).val / 512 * 512 ≤ (i 0).val ∧ (i 0).val < (i 0).val / 512 * 512 + 512
    omega
  | ⟨1, _⟩ =>
    show 0 * 1024 ≤ (i 1).val ∧ (i 1).val < 0 * 1024 + 1024
    omega

theorem final_of_rows (M : Mat 4096 1024)
    (hM : ∀ t : Fin C1.N, lastAt t → ∀ (r : Fin 512) (d : Fin 1024),
      (traj1 V c t.val t.isLt).2 (ix2 r d) = M (tileIx (T := 8) (B := 512) (aqF t) r) d) :
    (dat1 V c).arrAt (8 : Fin 9) C1.N = Spec.arr2 M :=
  (dat1 V c).arrAt_eq_of_cover (8 : Fin 9) (Spec.arr2 M) (flushed8_eq V c M hM) cover8

end Cert.KernelIdeal.Val

end
-- ==== Proof.ValFlash.lean ====
import proofs.«405582_j50302656971267_3_alg».proof.Proof.ValFlashBlocks

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)
open Cert.Spec

variable (V : (c : Dev nD) → (b : Ref sig .tc) → Buf (Elt Idealize.ShloMosaic.Ideal) ((c : Thread nD τ).loc b)) (c : Dev nD)

abbrev Qm : Mat 4096 1024 := Spec.proj (Spec.cur2 (V c main_v0)) (Spec.cur2 (V c main_v5)) (Spec.cur1 (V c main_arg2))
abbrev Km : Mat 4096 1024 := Spec.cur2 (V c main_v4_0)
abbrev Vm : Mat 4096 1024 := Spec.cur2 (V c main_v4_1)
abbrev Em : Mat 4096 1024 := Spec.cur2 (V c main_arg0)

theorem toNat_ofNat_tile (n : ℕ) (h : n ≤ 7) : (BitVec.ofNat 32 n).toNat = n := by
  rw [BitVec.toNat_ofNat]
  exact Nat.mod_eq_of_lt (by omega)

theorem holds_point (t : Fin C1.N) (s : Scr Idealize.ShloMosaic.Ideal)
    (hs : Holds (Qm V c) (Km V c) (Vm V c) (aqF t) (kiAt t) s) :
    Holds (Qm V c) (Km V c) (Vm V c) (aqF t) (kiAt t + 1)
      (step (BitVec.ofNat 32 (aqAt t)) (BitVec.ofNat 32 (kiAt t)) s (iblk1 V c (3 : Fin 9) t) (iblk1 V c (4 : Fin 9) t)) :=
  holds_step (Qm V c) (Km V c) (Vm V c) (aqF t) (kiAt t) (kiF t).isLt (BitVec.ofNat 32 (aqAt t)) (BitVec.ofNat 32 (kiAt t))
    (toNat_ofNat_tile _ (aqAt_le t)) (toNat_ofNat_tile _ (by have := aqAt_le t; have := kiAt_le_aqAt t; omega)) s hs
    (iblk1 V c (3 : Fin 9) t) (iblk1 V c (4 : Fin 9) t)
    (fun c' d => iblk3_apply V c t c' d) (fun c' d => iblk4_apply V c t c' d)

theorem holds_first (t : Fin C1.N) (hf : firstAt t) :
    Holds (Qm V c) (Km V c) (Vm V c) (aqF t) (kiAt t + 1) (traj1 V c t.val t.isLt).1 := by
  rw [traj1_first V c t hf]
  refine holds_point V c t _ ?_
  rw [show kiAt t = 0 from hf]
  refine holds_reset (Qm V c) (Km V c) (Vm V c) (aqF t) (iblk1 V c (0 : Fin 9) t) (iblk1 V c (1 : Fin 9) t) (iblk1 V c (2 : Fin 9) t) fun r d => ?_
  rw [iblk2_apply V c t d]
  show _ = (∑ k, Spec.cur2 (V c main_v0) (tileIx (T := 8) (B := 512) (aqF t) r) k * Spec.cur2 (V c main_v5) k d) + Spec.cur1 (V c main_arg2) d
  congr 1
  exact Finset.sum_congr rfl fun k _ => by rw [iblk0_apply V c t r k, iblk1_apply V c t k d]

theorem holds_traj : ∀ (n : ℕ) (t : Fin C1.N), t.val = n →
    Holds (Qm V c) (Km V c) (Vm V c) (aqF t) (kiAt t + 1) (traj1 V c t.val t.isLt).1 := by
  intro n
  induction n with
  | zero => intro t ht; exact holds_first V c t (firstAt_zero t ht)
  | succ n ih =>
    intro t ht
    by_cases hf : firstAt t
    · exact holds_first V c t hf
    · obtain ⟨h0, ha, hk⟩ := prev_of_not_first t hf
      have ihp := ih ⟨t.val - 1, by have := t.isLt; omega⟩ (by show t.val - 1 = n; omega)
      rw [traj1_next V c t hf h0]
      refine holds_point V c t _ ?_
      have ea : aqF (⟨t.val - 1, by have := t.isLt; omega⟩ : Fin C1.N) = aqF t := Fin.ext ha
      rw [ea, hk] at ihp
      exact ihp

/-- By induction along the grid each row's triple is the recurrence over key tiles `0 … ki`; at `ki = aq` the rows are normalised and tile the result. -/
theorem flash_value
    (hE : ∀ i, ∃ r : ℝ, (V c main_v0) i = (r : EReal)) (hWq : ∀ i, ∃ r : ℝ, (V c main_v5) i = (r : EReal))
    (hbq : ∀ i, ∃ r : ℝ, (V c main_arg2) i = (r : EReal)) (hK : ∀ i, ∃ r : ℝ, (V c main_v4_0) i = (r : EReal))
    (hV : ∀ i, ∃ r : ℝ, (V c main_v4_1) i = (r : EReal)) (hEf : ∀ i, ∃ r : ℝ, (V c main_arg0) i = (r : EReal)) :
    (dat1 V c).arrAt (8 : Fin 9) C1.N
      = Spec.arr2 (Spec.lnorm (Spec.attnRes (Spec.proj (Spec.cur2 (V c main_v0)) (Spec.cur2 (V c main_v5)) (Spec.cur1 (V c main_arg2)))
          (Spec.cur2 (V c main_v4_0)) (Spec.cur2 (V c main_v4_1)) (Spec.cur2 (V c main_arg0)))
          (Spec.cur1 (V c main_arg7)) (Spec.cur1 (V c main_arg8))) := by
  have hQ : MatReal (Qm V c) :=
    matReal_proj (fun i j => hE (ix2 i j)) (fun i j => hWq (ix2 i j)) (fun j => hbq (ValueIdx.ix1 j))
  refine final_of_rows V c _ fun t hl r d => ?_
  have hs := holds_traj V c t.val t rfl
  rw [show kiAt t = aqAt t from hl] at hs
  rw [traj1_out V c t hl]
  exact epilogue_eq (Qm V c) (Km V c) (Vm V c) (Em V c) hQ (fun i j => hK (ix2 i j)) (fun i j => hV (ix2 i j))
    (fun i j => hEf (ix2 i j)) (Spec.cur1 (V c main_arg7)) (Spec.cur1 (V c main_arg8)) (aqF t)
    (traj1 V c t.val t.isLt).1 hs (iblk1 V c (5 : Fin 9) t) (iblk1 V c (6 : Fin 9) t) (iblk1 V c (7 : Fin 9) t)
    (fun r d => iblk5_apply V c t r d) (fun d => iblk6_apply V c t d) (fun d => iblk7_apply V c t d) r d

end Cert.KernelIdeal.Val

end
-- ==== Proof.AsmK.lean ====
import proofs.«405582_j50302656971267_3_alg».proof.Proof.ValKV
import proofs.«405582_j50302656971267_3_alg».proof.Proof.ValFFN
import proofs.«405582_j50302656971267_3_alg».proof.Proof.HostIdeal
import proofs.«405582_j50302656971267_3_alg».proof.Proof.HostVals
import proofs.«405582_j50302656971267_3_alg».proof.Proof.FlashMath
import proofs.«405582_j50302656971267_3_alg».proof.Proof.Finite
import proofs.«405582_j50302656971267_3_alg».proof.Proof.R1Dat
import proofs.«405582_j50302656971267_3_alg».proof.Proof.Run
import proofs.«405582_j50302656971267_3_alg».proof.Proof.ValFlash

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec

theorem cur2_arr2 {n0 n1 : Nat} (M : Mat n0 n1) : cur2 (arr2 M) = M := rfl

section

variable (m : (ℓ : Loc nD τ sig) → Buf (Elt Ideal) ℓ) (ρ : Dev nD → PrngReg) (c : Dev nD)

theorem V1_main_v0 : V1 m ρ c main_v0 = m ((c.tc : Thread nD τ).loc main_arg0) :=
  (host0_v0 (F := Ideal) (W0 m ρ c)).trans rfl

/-- The weights sit side by side as `[Wk | Wv]` and the biases end to end: the left columns are `E Wk + bk`, the right `E Wv + bv`. -/
theorem kv_eq :
    keysM (V1 m ρ) c = proj (cur2 (m ((c.tc : Thread nD τ).loc main_arg0))) (cur2 (m ((c.tc : Thread nD τ).loc main_arg3))) (cur1 (m ((c.tc : Thread nD τ).loc main_arg4)))
      ∧ valsM (V1 m ρ) c = proj (cur2 (m ((c.tc : Thread nD τ).loc main_arg0))) (cur2 (m ((c.tc : Thread nD τ).loc main_arg5))) (cur1 (m ((c.tc : Thread nD τ).loc main_arg6))) := by
  have h2 : V1 m ρ c main_v2 = concatenate S1024x2048 1 [⟨S1024x1024, m ((c.tc : Thread nD τ).loc main_arg3)⟩, ⟨S1024x1024, m ((c.tc : Thread nD τ).loc main_arg5)⟩]
      concatenates_S1024x1024_S1024x1024_S1024x2048_d1 := (host0_v2 (F := Ideal) (W0 m ρ c)).trans rfl
  have h3 : V1 m ρ c main_v3 = concatenate S2048 0 [⟨S1024, m ((c.tc : Thread nD τ).loc main_arg4)⟩, ⟨S1024, m ((c.tc : Thread nD τ).loc main_arg6)⟩] concatenates_S1024_S1024_S2048_d0 :=
    (host0_v3 (F := Ideal) (W0 m ρ c)).trans rfl
  constructor
  · show proj (cur2 (V1 m ρ c main_v0)) (fun k j => cur2 (V1 m ρ c main_v2) k (Fin.castLE (by decide) j))
      (fun j => cur1 (V1 m ρ c main_v3) (Fin.castLE (by decide) j)) = _
    rw [V1_main_v0, h2, h3]
    exact congrArg₂ (proj _) (funext fun k => funext fun j => catW_left _ _ _ k j) (funext fun j => catB_left _ _ _ j)
  · show proj (cur2 (V1 m ρ c main_v0)) (fun k j => cur2 (V1 m ρ c main_v2) k ⟨1024 + j.val, by omega⟩)
      (fun j => cur1 (V1 m ρ c main_v3) ⟨1024 + j.val, by omega⟩) = _
    rw [V1_main_v0, h2, h3]
    exact congrArg₂ (proj _) (funext fun k => funext fun j => catW_right _ _ _ k j) (funext fun j => catB_right _ _ _ j)

end

variable [hPre_finite_inputs : Cert.Pre_finite_inputs.Facts]
variable (m : (ℓ : Loc nD τ sig) → Buf (Elt Ideal) ℓ) (ρ : Dev nD → PrngReg)

/-- The three calls chained: keys and values, then the normalised attention block, then the perceptron: `Spec.whole` of the arguments. -/
theorem result_eq (hpre : Cert.Pre_KernelIdeal m) (c : Dev nD) :
    W6 m ρ c (Proc.devRef .tc main_v9)
      = arr2 (whole (cur2 (m ((c.tc : Thread nD τ).loc main_arg0))) (cur2 (m ((c.tc : Thread nD τ).loc main_arg1))) (cur1 (m ((c.tc : Thread nD τ).loc main_arg2)))
          (cur2 (m ((c.tc : Thread nD τ).loc main_arg3))) (cur1 (m ((c.tc : Thread nD τ).loc main_arg4))) (cur2 (m ((c.tc : Thread nD τ).loc main_arg5)))
          (cur1 (m ((c.tc : Thread nD τ).loc main_arg6))) (cur1 (m ((c.tc : Thread nD τ).loc main_arg7))) (cur1 (m ((c.tc : Thread nD τ).loc main_arg8)))
          (cur2 (m ((c.tc : Thread nD τ).loc main_arg9))) (cur1 (m ((c.tc : Thread nD τ).loc main_arg10))) (cur2 (m ((c.tc : Thread nD τ).loc main_arg11)))
          (cur1 (m ((c.tc : Thread nD τ).loc main_arg12)))) := by
  obtain ⟨f0, f1, f2, f3, f4, f5, f6, -⟩ := Cert.Finite.finite_of_pre m hpre c
  have a30 : V3 m ρ c main_v0 = _ := (W3_eq_W1 m ρ c main_v0 (by decide) (by decide)).trans (V1_main_v0 m ρ c)
  have a35 : V3 m ρ c main_v5 = _ := (host1_v5 (F := Ideal) (W2 m ρ c)).trans (W2_launch m ρ c main_arg1 (by decide) (by decide))
  have a32 : V3 m ρ c main_arg2 = _ := W3_launch m ρ c main_arg2 (by decide) (by decide) (by decide)
  have a3a : V3 m ρ c main_arg0 = _ := W3_launch m ρ c main_arg0 (by decide) (by decide) (by decide)
  have a37 : V3 m ρ c main_arg7 = _ := W3_launch m ρ c main_arg7 (by decide) (by decide) (by decide)
  have a38 : V3 m ρ c main_arg8 = _ := W3_launch m ρ c main_arg8 (by decide) (by decide) (by decide)
  have a57 : V5 m ρ c main_v7 = _ :=
    (host2_v7 (F := Ideal) (W4 m ρ c)).trans (W4_launch m ρ c main_arg9 (by decide) (by decide) (by decide) (by decide))
  have a58 : V5 m ρ c main_v8 = _ :=
    (host2_v8 (F := Ideal) (W4 m ρ c)).trans (W4_launch m ρ c main_arg11 (by decide) (by decide) (by decide) (by decide))
  have a5a : V5 m ρ c main_arg10 = _ := W5_launch m ρ c main_arg10 (by decide) (by decide) (by decide) (by decide) (by decide)
  have a5c : V5 m ρ c main_arg12 = _ := W5_launch m ρ c main_arg12 (by decide) (by decide) (by decide) (by decide) (by decide)
  obtain ⟨hk, hv⟩ := kv_eq m ρ c
  have h40 := (V3_main_v4_0 (F := Ideal) m ρ c).trans ((arrAt0_3 (V1 m ρ) c).trans (congrArg arr2 hk))
  have h41 := (V3_main_v4_1 (F := Ideal) m ρ c).trans ((arrAt0_4 (V1 m ρ) c).trans (congrArg arr2 hv))
  have hflash := flash_value (V3 m ρ) c (by rw [a30]; exact f0) (by rw [a35]; exact f1) (by rw [a32]; exact f2)
    (by rw [h40]; exact fun i =>
      matReal_proj (fun i j => f0 (ix2 i j)) (fun i j => f3 (ix2 i j)) (fun j => f4 (ValueIdx.ix1 j)) (i 0) (i 1))
    (by rw [h41]; exact fun i =>
      matReal_proj (fun i j => f0 (ix2 i j)) (fun i j => f5 (ix2 i j)) (fun j => f6 (ValueIdx.ix1 j)) (i 0) (i 1))
    (by rw [a3a]; exact f0)
  rw [(W6_main_v9 (F := Ideal) m ρ c).trans (ffn_arr (V5 m ρ) c), (V5_main_v6 (F := Ideal) m ρ c).trans hflash, a57, a58, a5a,
    a5c, cur2_arr2, a30, a35, a32, a3a, a37, a38, h40, h41, cur2_arr2, cur2_arr2]
  rfl

end Cert.KernelIdeal.Val

end
-- ==== Proof.ValRef.lean ====
import proofs.«405582_j50302656971267_3_alg».proof.Proof.Gen.ReferenceIdeal.Read
import proofs.«405582_j50302656971267_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws
import proofs.«405582_j50302656971267_3_alg».proof.Proof.Consts

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

theorem word_zero : FloatOps.ofBits (F := Ideal) .f32 0x00000000#32 = 0 := Ideal.ofBits_zero_f32

theorem toNat_pos (a : Fin 4096) : (BitVec.ofNat 32 a.val).toNat = a.val := by
  rw [BitVec.toNat_ofNat]; exact Nat.mod_eq_of_lt (by have := a.isLt; omega)

/-- Positions below 2¹² compare as words exactly as they compare as numbers, so the mask is the lower triangle. -/
theorem mask_iff {a b : Fin 4096} :
    IntOp.cmpi .sge (IntOp.addi (BitVec.ofNat 32 a.val) 0#32) (BitVec.ofNat 32 b.val) = 1#1 ↔ b.val ≤ a.val := by
  rw [show IntOp.addi (BitVec.ofNat 32 a.val) 0#32 = BitVec.ofNat 32 a.val from BitVec.add_zero _]
  refine (StableHlo.Predicate.sge_iff_toNat ?_ ?_).trans ?_
  · rw [toNat_pos]; have := a.isLt; omega
  · rw [toNat_pos]; have := b.isLt; omega
  · rw [toNat_pos, toNat_pos]

variable (x0 : (⟨S4096x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 x7 x8 : (⟨S1024, .f32⟩ : BufTy).Contents (Elt Ideal)) (x9 : (⟨S1024x4096, .f32⟩ : BufTy).Contents (Elt Ideal))
  (x10 : (⟨S4096, .f32⟩ : BufTy).Contents (Elt Ideal)) (x11 : (⟨S4096x1024, .f32⟩ : BufTy).Contents (Elt Ideal))
  (x12 : (⟨S1024, .f32⟩ : BufTy).Contents (Elt Ideal))

theorem query_eq :
    val_main_v4 (F := Ideal) x0 x1 x2 = Spec.arr2 (Spec.proj (Spec.cur2 x0) (Spec.cur2 x1) (Spec.cur1 x2)) := by
  funext i
  rw [val_main_v4_apply, val_main_v1_apply, val_main_v3_apply, val_main_v2_apply]
  have hl : ∀ k, lidx_main_v1 i k = ix2 (i 0) k := fun k => eq_ix2 _
  have hr : ∀ k, ridx_main_v1 i k = ix2 k (i 1) := fun k => eq_ix2 _
  have hb : idx_main_v2 (idx_main_v3 i) = ix1 (i 1) := eq_ix1 _
  simp only [hl, hr, hb]
  rfl

theorem key_eq :
    val_main_v8 (F := Ideal) x0 x3 x4 = Spec.arr2 (Spec.proj (Spec.cur2 x0) (Spec.cur2 x3) (Spec.cur1 x4)) :=
  query_eq x0 x3 x4

theorem value_eq :
    val_main_v12 (F := Ideal) x0 x5 x6 = Spec.arr2 (Spec.proj (Spec.cur2 x0) (Spec.cur2 x5) (Spec.cur1 x6)) :=
  query_eq x0 x5 x6

abbrev specQ : Spec.Mat 4096 1024 := Spec.proj (Spec.cur2 x0) (Spec.cur2 x1) (Spec.cur1 x2)

abbrev specK : Spec.Mat 4096 1024 := Spec.proj (Spec.cur2 x0) (Spec.cur2 x3) (Spec.cur1 x4)

abbrev specV : Spec.Mat 4096 1024 := Spec.proj (Spec.cur2 x0) (Spec.cur2 x5) (Spec.cur1 x6)

abbrev specS : Spec.Mat 4096 4096 := Spec.logit (specQ x0 x1 x2) (specK x0 x3 x4)

abbrev specX : Spec.Mat 4096 1024 :=
  Spec.attnRes (specQ x0 x1 x2) (specK x0 x3 x4) (specV x0 x5 x6) (Spec.cur2 x0)

abbrev specY : Spec.Mat 4096 1024 := Spec.lnorm (specX x0 x1 x2 x3 x4 x5 x6) (Spec.cur1 x7) (Spec.cur1 x8)

theorem logits_eq :
    val_main_v19 (F := Ideal) x0 x1 x2 x3 x4 = Spec.arr2 (specS x0 x1 x2 x3 x4) := by
  funext i
  rw [val_main_v19_apply, val_main_v18_apply, val_main_call0_v4_apply, val_main_call0_v2_apply, val_main_call0_v0_apply,
    val_main_call0_v1_apply, val_main_call0_c_apply, val_main_call0_v3_apply, val_main_v17_apply, val_main_c_apply,
    val_main_call0_v5_apply, val_main_call0_c_0_apply, val_main_call1_v1_apply, val_main_call1_v0_apply, val_main_cst_0_apply,
    val_main_v16_apply, val_main_v15_apply, val_main_v0_apply, val_main_cst_apply, val_main_v14_apply]
  simp only [val_main_v13_apply, query_eq, key_eq]
  show Scalar.select (Scalar.select (IntOp.cmpi .sge (IntOp.addi (BitVec.ofNat 32 (i 0).val) 0#32) (BitVec.ofNat 32 (i 1).val)) 1#1 0#1)
      (Ideal.div (∑ k, specQ x0 x1 x2 (i 0) k * specK x0 x3 x4 (i 1) k) (Ideal.sqrt (Ideal.ofBits .f32 0x44800000#32)))
      (Ideal.ofBits .f32 0xFF800000#32)
    = if (i 1).val ≤ (i 0).val then (∑ k, specQ x0 x1 x2 (i 0) k * specK x0 x3 x4 (i 1) k) * Spec.scale else ⊥
  by_cases h : (i 1).val ≤ (i 0).val
  · rw [mask_iff.mpr h, select_one, select_one, if_pos h, Cert.Consts.div_sqrt_len]
  · rw [eq_zero_of_ne_one (mt mask_iff.mp h), select_zero, select_zero, if_neg h, Cert.Consts.ofBits_neg_inf]

theorem lift_col (h : S4096x4096.Reduces [1] S4096) (j : S4096.Idx) (k : Fin (S4096x4096.size 1)) :
    h.lift j k = ix2 (j 0) (⟨k.val, k.isLt⟩ : Fin 4096) := by
  funext c; apply Fin.ext
  match c with
  | ⟨0, _⟩ => rfl
  | ⟨1, _⟩ => rfl

theorem rowmax_eq :
    val_main_v22 (F := Ideal) x0 x1 x2 x3 x4 = fun j => Spec.rowMax (specS x0 x1 x2 x3 x4) (j 0) := by
  funext j
  have hred : S4096x4096.Reduces [1] S4096 := by decide
  rw [val_main_v22_apply, val_main_v21_apply, val_main_cst_2_apply]
  unfold val_main_v20
  rw [logits_eq, Host.reduce_eq_fold_single FloatOps.maximumf _ _ reducesTo_S4096x4096_S4096_d1 hred h_S_ j, val_main_cst_1_apply]
  have hf : (Spec.arr2 (specS x0 x1 x2 x3 x4) ∘ hred.lift j) = fun k : Fin 4096 => specS x0 x1 x2 x3 x4 (j 0) k :=
    funext fun k => congrArg (Spec.arr2 (specS x0 x1 x2 x3 x4)) (lift_col hred j k)
  rw [hf]
  show max (Ideal.ofBits .f32 0xFF800000#32)
      (Finset.univ.fold max (Ideal.ofBits .f32 0xFF800000#32) fun k : Fin 4096 => specS x0 x1 x2 x3 x4 (j 0) k)
    = Finset.univ.sup (specS x0 x1 x2 x3 x4 (j 0))
  rw [Cert.Consts.ofBits_neg_inf, bot_sup_eq]
  rfl

theorem expw_eq :
    val_main_v26 (F := Ideal) x0 x1 x2 x3 x4 = Spec.arr2 (Spec.expw (specS x0 x1 x2 x3 x4)) := by
  funext i
  rw [val_main_v26_apply, val_main_v25_apply, val_main_v24_apply, val_main_v23_apply, rowmax_eq, logits_eq]
  rfl

theorem softmax_eq :
    val_main_v30 (F := Ideal) x0 x1 x2 x3 x4 = Spec.arr2 (Spec.softmax (specS x0 x1 x2 x3 x4)) := by
  funext i
  rw [val_main_v30_apply, val_main_v29_apply, val_main_v28_apply, val_main_v27_apply, val_main_cst_3_apply, expw_eq,
    word_zero, zero_add]
  rfl

theorem attn_eq :
    val_main_v32 (F := Ideal) x0 x1 x2 x3 x4 x5 x6 = Spec.arr2 (specX x0 x1 x2 x3 x4 x5 x6) := by
  funext i
  rw [val_main_v32_apply, val_main_v31_apply, softmax_eq, value_eq]
  have hx : x0 i = Spec.cur2 x0 (i 0) (i 1) := congrArg x0 (eq_ix2 i)
  rw [hx]
  rfl

theorem mean_eq :
    val_main_v36 (F := Ideal) x0 x1 x2 x3 x4 x5 x6 = fun j => Spec.mean (specX x0 x1 x2 x3 x4 x5 x6) (j 0) := by
  funext j
  rw [val_main_v36_apply, val_main_v34_apply, val_main_v33_apply, val_main_cst_4_apply, val_main_v35_apply,
    val_main_cst_5_apply, attn_eq, word_zero, zero_add]
  rfl

theorem var_eq :
    val_main_v43 (F := Ideal) x0 x1 x2 x3 x4 x5 x6 = fun j => Spec.var (specX x0 x1 x2 x3 x4 x5 x6) (j 0) := by
  funext j
  rw [val_main_v43_apply, val_main_v41_apply, val_main_v40_apply, val_main_cst_6_apply, val_main_v42_apply,
    val_main_cst_7_apply, word_zero, zero_add]
  simp only [val_main_v39_apply, val_main_v38_apply, val_main_v37_apply, mean_eq, attn_eq]
  rfl

theorem lnorm_eq :
    val_main_v56 (F := Ideal) x0 x1 x2 x3 x4 x5 x6 x7 x8 = Spec.arr2 (specY x0 x1 x2 x3 x4 x5 x6 x7 x8) := by
  funext i
  rw [val_main_v56_apply, val_main_v53_apply, val_main_v50_apply, val_main_v45_apply, val_main_v44_apply, val_main_v49_apply,
    val_main_v48_apply, val_main_v47_apply, var_eq, val_main_v46_apply, val_main_cst_8_apply, mean_eq, attn_eq,
    val_main_v52_apply, val_main_v51_apply, val_main_v55_apply, val_main_v54_apply]
  have hg : idx_main_v51 (idx_main_v52 i) = ix1 (i 1) := eq_ix1 _
  have ho : idx_main_v54 (idx_main_v55 i) = ix1 (i 1) := eq_ix1 _
  rw [hg, ho]
  rfl

theorem hidden_eq :
    val_main_v61 (F := Ideal) x0 x1 x2 x3 x4 x5 x6 x7 x8 x9 x10
      = Spec.arr2 (fun i h => max (Spec.proj (specY x0 x1 x2 x3 x4 x5 x6 x7 x8) (Spec.cur2 x9) (Spec.cur1 x10) i h) 0) := by
  funext i
  rw [val_main_v61_apply, val_main_v60_apply, val_main_v57_apply, lnorm_eq, val_main_v59_apply, val_main_v58_apply,
    val_main_call2_v0_apply, val_main_call2_cst_apply, word_zero]
  have hr : ∀ k, ridx_main_v57 i k = ix2 k (i 1) := fun k => eq_ix2 _
  have hb : idx_main_v58 (idx_main_v59 i) = ix1 (i 1) := eq_ix1 _
  simp only [hr, hb]
  rfl

theorem ref_value :
    Read.val_main_v65 (F := Ideal) x0 x1 x2 x3 x4 x5 x6 x7 x8 x9 x10 x11 x12
      = Spec.arr2 (Spec.whole (Spec.cur2 x0) (Spec.cur2 x1) (Spec.cur1 x2) (Spec.cur2 x3) (Spec.cur1 x4) (Spec.cur2 x5)
          (Spec.cur1 x6) (Spec.cur1 x7) (Spec.cur1 x8) (Spec.cur2 x9) (Spec.cur1 x10) (Spec.cur2 x11) (Spec.cur1 x12)) := by
  funext i
  rw [val_main_v65_apply, val_main_v62_apply, hidden_eq, val_main_v64_apply, val_main_v63_apply]
  have hr : ∀ k, ridx_main_v62 i k = ix2 k (i 1) := fun k => eq_ix2 _
  have hb : idx_main_v63 (idx_main_v64 i) = ix1 (i 1) := eq_ix1 _
  simp only [hr, hb]
  rfl

end Cert.ReferenceIdeal.RefValue

end
-- ==== Proof.AsmRef.lean ====
import proofs.«405582_j50302656971267_3_alg».proof.Defs
import proofs.«405582_j50302656971267_3_alg».proof.Proof.Gen.ReferenceIdeal
import proofs.«405582_j50302656971267_3_alg».proof.Proof.Gen.ReferenceIdeal.Run
import proofs.«405582_j50302656971267_3_alg».proof.Proof.Gen.ReferenceIdeal.Read
import proofs.«405582_j50302656971267_3_alg».proof.Proof.ValRef
import proofs.«405582_j50302656971267_3_alg».proof.Proof.Spec

noncomputable section

namespace Cert.ReferenceIdeal.RefValue

open Cert.ReferenceIdeal Cert.ReferenceIdeal.Gen Idealize.ShloMosaic Idealize.ShloMosaic.TcCoe Idealize.SL.Sem Cert.Spec

def wholeOf (m : (ℓ : Loc nD τ sig) → Buf (Elt Ideal) ℓ) (c : Dev nD) : S4096x1024.Idx → EReal :=
  arr2 (whole (cur2 (m ((c.tc : Thread nD τ).loc main_arg0))) (cur2 (m ((c.tc : Thread nD τ).loc main_arg1))) (cur1 (m ((c.tc : Thread nD τ).loc main_arg2)))
    (cur2 (m ((c.tc : Thread nD τ).loc main_arg3))) (cur1 (m ((c.tc : Thread nD τ).loc main_arg4))) (cur2 (m ((c.tc : Thread nD τ).loc main_arg5)))
    (cur1 (m ((c.tc : Thread nD τ).loc main_arg6))) (cur1 (m ((c.tc : Thread nD τ).loc main_arg7))) (cur1 (m ((c.tc : Thread nD τ).loc main_arg8)))
    (cur2 (m ((c.tc : Thread nD τ).loc main_arg9))) (cur1 (m ((c.tc : Thread nD τ).loc main_arg10))) (cur2 (m ((c.tc : Thread nD τ).loc main_arg11)))
    (cur1 (m ((c.tc : Thread nD τ).loc main_arg12))))

theorem res_eq (m : (ℓ : Loc nD τ sig) → Buf (Elt Ideal) ℓ) (c : Dev nD) :
    Cert.ReferenceIdeal.Value.res_main_v65 (F := Ideal) m c = wholeOf m c := by
  rw [Cert.ReferenceIdeal.Read.val_main_v65_eq, ref_value]
  rfl

end Cert.ReferenceIdeal.RefValue

end
-- ==== Proof.ConstsK.lean ====
import Idealize.ShloMosaic.PureOps.IdealRules
import proofs.«405582_j50302656971267_3_alg».proof.KernelIdeal

noncomputable section

namespace Cert.Consts

open Idealize.ShloMosaic

/-- The mask's finite stand-in is named `−∞`: the table's entry, which is all the rewrite's statement needs. -/
theorem preserves : IdealRules.named_const.Statement Cert.KernelIdeal.κ "neg_big" .f32 0xFF333332#32 ⊥ :=
  IdealRules.named_const.statement Cert.KernelIdeal.κ "neg_big" .f32 0xFF333332#32 ⊥ (by simp only [Cert.KernelIdeal.κ])

end Cert.Consts

end
-- ==== Proof.lean ====
import proofs.«405582_j50302656971267_3_alg».proof.Defs
import proofs.«405582_j50302656971267_3_alg».proof.Proof.Gen.Kernel
import proofs.«405582_j50302656971267_3_alg».proof.Proof.Gen.KernelIdeal
import proofs.«405582_j50302656971267_3_alg».proof.Proof.Gen.ReferenceIdeal
import proofs.«405582_j50302656971267_3_alg».proof.Proof.Gen.ReferenceIdeal.Run
import proofs.«405582_j50302656971267_3_alg».proof.Proof.Gen.ReferenceIdeal.Read
import proofs.«405582_j50302656971267_3_alg».proof.Proof.Gen.Pre_finite_inputs
import proofs.«405582_j50302656971267_3_alg».proof.Proof.Frame
import proofs.«405582_j50302656971267_3_alg».proof.Proof.B.Frame
import proofs.«405582_j50302656971267_3_alg».proof.Proof.AsmK
import proofs.«405582_j50302656971267_3_alg».proof.Proof.AsmRef
import proofs.«405582_j50302656971267_3_alg».proof.Proof.ConstsK
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := Cert.Consts.preserves

theorem algebraic : Cert.algebraic_KernelIdeal_ReferenceIdeal := by
  intro m ρ m' ρ' hpre hagree
  refine ⟨fun c => Cert.ReferenceIdeal.RefValue.wholeOf m' c, ?_, ?_⟩
  · refine (θ_run Cert.KernelIdeal.defs _ _).mono (fun r h c => ⟨(h c).1.trans ?_, (h c).2⟩)
      (Cert.KernelIdeal.Hand.run_res (F := Ideal) m ρ)
    rw [Cert.KernelIdeal.Val.result_eq m ρ hpre c]
    show _ = Cert.ReferenceIdeal.RefValue.wholeOf m' c
    unfold Cert.ReferenceIdeal.RefValue.wholeOf
    simp only [hagree c]
  · exact (θ_run Cert.ReferenceIdeal.defs _ _).mono
      (fun r h c => ⟨(h c).1.trans (Cert.ReferenceIdeal.RefValue.res_eq m' c), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
